-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S256x1 : Shape := ⟨2, ![256, 1]⟩
abbrev S128x256 : Shape := ⟨2, ![128, 256]⟩
abbrev S256 : Shape := ⟨1, ![256]⟩
abbrev S256x1433 : Shape := ⟨2, ![256, 1433]⟩
abbrev S1433 : Shape := ⟨1, ![1433]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1433 : S_.BroadcastsInDim S256x1433 (![] : Fin 0 → Fin S256x1433.rank)
  reducesTo_S256x1433_S_d0_1 : S256x1433.ReducesTo [0, 1] S_
  bcast_S_S1433 : S_.BroadcastsInDim S1433 (![] : Fin 0 → Fin S1433.rank)
  reducesTo_S1433_S_d0 : S1433.ReducesTo [0] S_

variable [Facts]

def fn_part3 {F : FTy → Type} [FloatOps F] (main_arg11 : FVec F S256 .f32) (main_arg12 : FVec F S256 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S256x1433 .f32) (main_arg8 : FVec F S1433 .f32) (main_arg9 : FVec F S1433 .f32) (main_arg10 : FVec F S128x256 .f32) (main_arg11 : FVec F S256 .f32) (main_arg12 : FVec F S256 .f32) (main_v33 : IVec S_ 1) : IVec S_ 1 :=
  let main_v34 : FVec F S256x1433 .f32 := Host.absf main_arg7
  let main_cst_12 : FVec F S_ .f32 := constant S_ .f32 0x7F800000#32
  let main_v35 : FVec F S256x1433 .f32 := broadcastInDim S256x1433 ![] bcast_S_S256x1433 main_cst_12
  let main_v36 : IVec S256x1433 1 := cmpf .olt main_v34 main_v35
  let main_c_13 : IVec S_ 1 := constantI S_ 1 1#1
  let main_v37 : IVec S_ 1 := (fun x v => Host.reduce IntOp.andi x v reducesTo_S256x1433_S_d0_1 h_S_) main_v36 main_c_13
  let main_v38 : IVec S_ 1 := andi main_v33 main_v37
  let main_v39 : FVec F S1433 .f32 := Host.absf main_arg8
  let main_cst_14 : FVec F S_ .f32 := constant S_ .f32 0x7F800000#32
  let main_v40 : FVec F S1433 .f32 := broadcastInDim S1433 ![] bcast_S_S1433 main_cst_14
  let main_v41 : IVec S1433 1 := cmpf .olt main_v39 main_v40
  let main_c_15 : IVec S_ 1 := constantI S_ 1 1#1
  let main_v42 : IVec S_ 1 := (fun x v => Host.reduce IntOp.andi x v reducesTo_S1433_S_d0 h_S_) main_v41 main_c_15
  let main_v43 : IVec S_ 1 := andi main_v38 main_v42
  let main_v44 : FVec F S1433 .f32 := Host.absf main_arg9
  let main_cst_16 : FVec F S_ .f32 := constant S_ .f32 0x7F800000#32
  let main_v45 : FVec F S1433 .f32 := broadcastInDim S1433 ![] bcast_S_S1433 main_cst_16
  let main_v46 : IVec S1433 1 := cmpf .olt main_v44 main_v45
  let main_c_17 : IVec S_ 1 := constantI S_ 1 1#1
  let main_v47 : IVec S_ 1 := (fun x v => Host.reduce IntOp.andi x v reducesTo_S1433_S_d0 h_S_) main_v46 main_c_17
  let main_v48 : IVec S_ 1 := andi main_v43 main_v47
  let main_v49 : FVec F S128x256 .f32 := Host.absf main_arg10
  let main_cst_18 : FVec F S_ .f32 := constant S_ .f32 0x7F800000#32
  let main_v50 : FVec F S128x256 .f32 := broadcastInDim S128x256 ![] bcast_S_S128x256 main_cst_18
  fn_part3 (F := F) main_arg11 main_arg12 main_v48 main_v49 main_v50

def fn_part1 {F : FTy → Type} [FloatOps F] (main_arg4 : FVec F S128x256 .f32) (main_arg5 : FVec F S256 .f32) (main_arg6 : FVec F S256 .f32) (main_arg7 : FVec F S256x1433 .f32) (main_arg8 : FVec F S1433 .f32) (main_arg9 : FVec F S1433 .f32) (main_arg10 : FVec F S128x256 .f32) (main_arg11 : FVec F S256 .f32) (main_arg12 : FVec F S256 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x128 .f32) (main_arg1 : FVec F S8192x8192 .f32) (main_arg2 : FVec F S128x128 .f32) (main_arg3 : FVec F S256x1 .f32) (main_arg4 : FVec F S128x256 .f32) (main_arg5 : FVec F S256 .f32) (main_arg6 : FVec F S256 .f32) (main_arg7 : FVec F S256x1433 .f32) (main_arg8 : FVec F S1433 .f32) (main_arg9 : FVec F S1433 .f32) (main_arg10 : FVec F S128x256 .f32) (main_arg11 : FVec F S256 .f32) (main_arg12 : FVec F S256 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_arg6 main_arg7 main_arg8 main_arg9 main_arg10 main_arg11 main_arg12 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S256x1 : Shape := ⟨2, ![256, 1]⟩
abbrev S128x256 : Shape := ⟨2, ![128, 256]⟩
abbrev S256 : Shape := ⟨1, ![256]⟩
abbrev S256x1433 : Shape := ⟨2, ![256, 1433]⟩
abbrev S1433 : Shape := ⟨1, ![1433]⟩
abbrev S128x1 : Shape := ⟨2, ![128, 1]⟩
abbrev S8192x1 : Shape := ⟨2, ![8192, 1]⟩
abbrev S1x8192 : Shape := ⟨2, ![1, 8192]⟩
abbrev S1024x1 : Shape := ⟨2, ![1024, 1]⟩
abbrev S1x1024 : Shape := ⟨2, ![1, 1024]⟩
abbrev S1024x128 : Shape := ⟨2, ![1024, 128]⟩
abbrev S1024x1024 : Shape := ⟨2, ![1024, 1024]⟩
abbrev S1024 : Shape := ⟨1, ![1024]⟩
abbrev S8192x256 : Shape := ⟨2, ![8192, 256]⟩
abbrev S8192x512 : Shape := ⟨2, ![8192, 512]⟩
abbrev S2048x1024 : Shape := ⟨2, ![2048, 1024]⟩
abbrev S1024x512 : Shape := ⟨2, ![1024, 512]⟩
abbrev S2048x512 : Shape := ⟨2, ![2048, 512]⟩
abbrev S_ : Shape := ⟨0, ![]⟩
abbrev S1x256 : Shape := ⟨2, ![1, 256]⟩
abbrev S8192x1433 : Shape := ⟨2, ![8192, 1433]⟩
abbrev S8192x1536 : Shape := ⟨2, ![8192, 1536]⟩
abbrev S512x1536 : Shape := ⟨2, ![512, 1536]⟩
abbrev S1024x1536 : Shape := ⟨2, ![1024, 1536]⟩
abbrev S1x1433 : Shape := ⟨2, ![1, 1433]⟩
abbrev S2048x256 : Shape := ⟨2, ![2048, 256]⟩
abbrev S1024x256 : Shape := ⟨2, ![1024, 256]⟩

abbrev nBuf : Space → Nat
  | .hbm => 127
  | .vmem => 35
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S256x1, .f32⟩
  | .hbm, ⟨4, _⟩ => ⟨S128x256, .f32⟩
  | .hbm, ⟨5, _⟩ => ⟨S256, .f32⟩
  | .hbm, ⟨6, _⟩ => ⟨S256, .f32⟩
  | .hbm, ⟨7, _⟩ => ⟨S256x1433, .f32⟩
  | .hbm, ⟨8, _⟩ => ⟨S1433, .f32⟩
  | .hbm, ⟨9, _⟩ => ⟨S1433, .f32⟩
  | .hbm, ⟨10, _⟩ => ⟨S128x256, .f32⟩
  | .hbm, ⟨11, _⟩ => ⟨S256, .f32⟩
  | .hbm, ⟨12, _⟩ => ⟨S256, .f32⟩
  | .hbm, ⟨13, _⟩ => ⟨S8192x128, .f32⟩
  | .hbm, ⟨14, _⟩ => ⟨S128x1, .f32⟩
  | .hbm, ⟨15, _⟩ => ⟨S8192x1, .f32⟩
  | .hbm, ⟨16, _⟩ => ⟨S128x1, .f32⟩
  | .hbm, ⟨17, _⟩ => ⟨S8192x1, .f32⟩
  | .hbm, ⟨18, _⟩ => ⟨S1x8192, .f32⟩
  | .hbm, ⟨19, _⟩ => ⟨S8192x128, .f32⟩
  | .hbm, ⟨20, _⟩ => ⟨S8192x8192, .bf16⟩
  | .hbm, ⟨21, _⟩ => ⟨S8192x256, .f32⟩
  | .hbm, ⟨22, _⟩ => ⟨S8192x256, .f32⟩
  | .hbm, ⟨23, _⟩ => ⟨S8192x512, .f32⟩
  | .hbm, ⟨24, _⟩ => ⟨S8192x512, .bf16⟩
  | .hbm, ⟨25, _⟩ => ⟨S8192x512, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S1x256, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S_, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S1x256, .f32⟩
  | .hbm, ⟨43, _⟩ => ⟨S8192x256, .f32⟩
  | .hbm, ⟨44, _⟩ => ⟨S8192x256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S1x256, .f32⟩
  | .hbm, ⟨50, _⟩ => ⟨S8192x256, .f32⟩
  | .hbm, ⟨51, _⟩ => ⟨S8192x256, .f32⟩
  | .hbm, ⟨52, _⟩ => ⟨S1x256, .f32⟩
  | .hbm, ⟨53, _⟩ => ⟨S8192x256, .f32⟩
  | .hbm, ⟨54, _⟩ => ⟨S8192x256, .f32⟩
  | .hbm, ⟨55, _⟩ => ⟨S1x256, .f32⟩
  | .hbm, ⟨56, _⟩ => ⟨S8192x256, .f32⟩
  | .hbm, ⟨57, _⟩ => ⟨S8192x256, .f32⟩
  | .hbm, ⟨58, _⟩ => ⟨S_, .f32⟩
  | .hbm, ⟨59, _⟩ => ⟨S256, .f32⟩
  | .hbm, ⟨60, _⟩ => ⟨S_, .f32⟩
  | .hbm, ⟨61, _⟩ => ⟨S256, .f32⟩
  | .hbm, ⟨62, _⟩ => ⟨S256, .f32⟩
  | .hbm, ⟨63, _⟩ => ⟨S1x256, .f32⟩
  | .hbm, ⟨64, _⟩ => ⟨S8192x256, .f32⟩
  | .hbm, ⟨65, _⟩ => ⟨S8192x256, .f32⟩
  | .hbm, ⟨66, _⟩ => ⟨S8192x256, .f32⟩
  | .hbm, ⟨67, _⟩ => ⟨S_, .f32⟩
  | .hbm, ⟨68, _⟩ => ⟨S256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S1x256, .f32⟩
  | .hbm, ⟨73, _⟩ => ⟨S8192x256, .f32⟩
  | .hbm, ⟨74, _⟩ => ⟨S8192x256, .f32⟩
  | .hbm, ⟨75, _⟩ => ⟨S_, .f32⟩
  | .hbm, ⟨76, _⟩ => ⟨S256, .f32⟩
  | .hbm, ⟨77, _⟩ => ⟨S256, .f32⟩
  | .hbm, ⟨78, _⟩ => ⟨S256, .f32⟩
  | .hbm, ⟨79, _⟩ => ⟨S1x256, .f32⟩
  | .hbm, ⟨80, _⟩ => ⟨S8192x256, .f32⟩
  | .hbm, ⟨81, _⟩ => ⟨S8192x256, .f32⟩
  | .hbm, ⟨82, _⟩ => ⟨S1x256, .f32⟩
  | .hbm, ⟨83, _⟩ => ⟨S8192x256, .f32⟩
  | .hbm, ⟨84, _⟩ => ⟨S8192x256, .f32⟩
  | .hbm, ⟨85, _⟩ => ⟨S1x256, .f32⟩
  | .hbm, ⟨86, _⟩ => ⟨S8192x256, .f32⟩
  | .hbm, ⟨87, _⟩ => ⟨S8192x256, .f32⟩
  | .hbm, ⟨88, _⟩ => ⟨S8192x1433, .f32⟩
  | .hbm, ⟨89, _⟩ => ⟨S_, .i32⟩
  | .hbm, ⟨90, _⟩ => ⟨S_, .f32⟩
  | .hbm, ⟨91, _⟩ => ⟨S8192x1536, .f32⟩
  | .hbm, ⟨92, _⟩ => ⟨S8192x1536, .bf16⟩
  | .hbm, ⟨93, _⟩ => ⟨S8192x1536, .f32⟩
  | .hbm, ⟨94, _⟩ => ⟨S8192x1433, .f32⟩
  | .hbm, ⟨95, _⟩ => ⟨S_, .f32⟩
  | .hbm, ⟨96, _⟩ => ⟨S1433, .f32⟩
  | .hbm, ⟨97, _⟩ => ⟨S_, .f32⟩
  | .hbm, ⟨98, _⟩ => ⟨S1433, .f32⟩
  | .hbm, ⟨99, _⟩ => ⟨S1433, .f32⟩
  | .hbm, ⟨100, _⟩ => ⟨S1x1433, .f32⟩
  | .hbm, ⟨101, _⟩ => ⟨S8192x1433, .f32⟩
  | .hbm, ⟨102, _⟩ => ⟨S8192x1433, .f32⟩
  | .hbm, ⟨103, _⟩ => ⟨S8192x1433, .f32⟩
  | .hbm, ⟨104, _⟩ => ⟨S_, .f32⟩
  | .hbm, ⟨105, _⟩ => ⟨S1433, .f32⟩
  | .hbm, ⟨106, _⟩ => ⟨S_, .f32⟩
  | .hbm, ⟨107, _⟩ => ⟨S1433, .f32⟩
  | .hbm, ⟨108, _⟩ => ⟨S1433, .f32⟩
  | .hbm, ⟨109, _⟩ => ⟨S1x1433, .f32⟩
  | .hbm, ⟨110, _⟩ => ⟨S8192x1433, .f32⟩
  | .hbm, ⟨111, _⟩ => ⟨S8192x1433, .f32⟩
  | .hbm, ⟨112, _⟩ => ⟨S_, .f32⟩
  | .hbm, ⟨113, _⟩ => ⟨S1433, .f32⟩
  | .hbm, ⟨114, _⟩ => ⟨S1433, .f32⟩
  | .hbm, ⟨115, _⟩ => ⟨S1433, .f32⟩
  | .hbm, ⟨116, _⟩ => ⟨S1x1433, .f32⟩
  | .hbm, ⟨117, _⟩ => ⟨S8192x1433, .f32⟩
  | .hbm, ⟨118, _⟩ => ⟨S8192x1433, .f32⟩
  | .hbm, ⟨119, _⟩ => ⟨S1x1433, .f32⟩
  | .hbm, ⟨120, _⟩ => ⟨S8192x1433, .f32⟩
  | .hbm, ⟨121, _⟩ => ⟨S8192x1433, .f32⟩
  | .hbm, ⟨122, _⟩ => ⟨S1x1433, .f32⟩
  | .hbm, ⟨123, _⟩ => ⟨S8192x1433, .f32⟩
  | .hbm, ⟨124, _⟩ => ⟨S8192x1433, .f32⟩
  | .hbm, ⟨125, _⟩ => ⟨S8192x256, .bf16⟩
  | .hbm, ⟨126, _⟩ => ⟨S8192x8192, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x128, .f32⟩
  | .local _ .vmem, ⟨5, _⟩ => ⟨S1024x128, .f32⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | .local _ .vmem, ⟨15, _⟩ => ⟨S2048x1024, .bf16⟩
  | .local _ .vmem, ⟨16, _⟩ => ⟨S2048x1024, .bf16⟩
  | .local _ .vmem, ⟨17, _⟩ => ⟨S1024x512, .bf16⟩
  | .local _ .vmem, ⟨18, _⟩ => ⟨S1024x512, .bf16⟩
  | .local _ .vmem, ⟨19, _⟩ => ⟨S2048x512, .f32⟩
  | .local _ .vmem, ⟨20, _⟩ => ⟨S2048x512, .f32⟩
  | .local _ .vmem, ⟨21, _⟩ => ⟨S2048x512, .f32⟩
  | .local _ .vmem, ⟨22, _⟩ => ⟨S1024x512, .bf16⟩
  | .local _ .vmem, ⟨23, _⟩ => ⟨S1024x512, .bf16⟩
  | .local _ .vmem, ⟨24, _⟩ => ⟨S512x1536, .bf16⟩
  | .local _ .vmem, ⟨25, _⟩ => ⟨S512x1536, .bf16⟩
  | .local _ .vmem, ⟨26, _⟩ => ⟨S1024x1536, .f32⟩
  | .local _ .vmem, ⟨27, _⟩ => ⟨S1024x1536, .f32⟩
  | .local _ .vmem, ⟨28, _⟩ => ⟨S1024x1536, .f32⟩
  | .local _ .vmem, ⟨29, _⟩ => ⟨S2048x256, .bf16⟩
  | .local _ .vmem, ⟨30, _⟩ => ⟨S2048x256, .bf16⟩
  | .local _ .vmem, ⟨31, _⟩ => ⟨S1024x256, .bf16⟩
  | .local _ .vmem, ⟨32, _⟩ => ⟨S1024x256, .bf16⟩
  | .local _ .vmem, ⟨33, _⟩ => ⟨S2048x1024, .f32⟩
  | .local _ .vmem, ⟨34, _⟩ => ⟨S2048x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c : Ref sig .tc := ⟨.hbm, 89, rfl⟩
abbrev main_call0_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_9 : Ref sig .tc := ⟨.hbm, 95, rfl⟩
abbrev main_v69 : Ref sig .tc := ⟨.hbm, 96, rfl⟩
abbrev main_cst_10 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_11 : Ref sig .tc := ⟨.hbm, 104, rfl⟩
abbrev main_v76 : Ref sig .tc := ⟨.hbm, 105, rfl⟩
abbrev main_cst_12 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_13 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_scratch0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v54 : BitVec 1 := Scalar.cmpi .eq arg1 c7_i32
  let v55 : BitVec 32 := Scalar.extui v54
  let c0_i32_28 : BitVec 32 := 0#32
  let v56 : BitVec 1 := Scalar.cmpi .ne v55 c0_i32_28
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 16], ![false, false]⟩

def k2_cond2 (i : grid2.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x1536 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1536 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  slices_S256x1_S128x1_0_0 : S256x1.Slices ![0, 0] S128x1
  slices_S256x1_S128x1_128_0 : S256x1.Slices ![128, 0] S128x1
  shapeCasts_S8192x1_S1x8192 : S8192x1.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x128 : S1024x1.Broadcasts S1024x128
  concatenates_S8192x256_S8192x256_S8192x512_d1 : Shape.Concatenates [S8192x256, S8192x256] S8192x512 1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S8192x512_S8192x256_0_0 : S8192x512.Slices ![0, 0] S8192x256
  slices_S8192x512_S8192x256_0_256 : S8192x512.Slices ![0, 256] S8192x256
  reducesTo_S8192x256_S256_d0 : S8192x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  pads_S8192x1433_S8192x1536_000_01030 : S8192x1433.Pads (![0, 0] : Fin 2 → Nat) ![0, 103] ![0, 0] S8192x1536
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S8192x1536_S8192x1433_0_0 : S8192x1536.Slices ![0, 0] S8192x1433
  reducesTo_S8192x1433_S1433_d0 : S8192x1433.ReducesTo [0] S1433
  bcast_S_S1433 : S_.BroadcastsInDim S1433 (![] : Fin 0 → Fin S1433.rank)
  bcast_S1433_S1x1433_1 : S1433.BroadcastsInDim S1x1433 (![1] : Fin 1 → Fin S1x1433.rank)
  bcast_S1x1433_S8192x1433_0_1 : S1x1433.BroadcastsInDim S8192x1433 (![0, 1] : Fin 2 → Fin S8192x1433.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S1024x1024_S1024x128_S1024x128_1_0_0_1_n_n_wf : DotDims.WF S1024x1024 S1024x128 S1024x128 [1] [0] [0] [1] [] []
  dot_S8192x128_S128x256_S8192x256_1_0_0_1_n_n_wf : DotDims.WF S8192x128 S128x256 S8192x256 [1] [0] [0] [1] [] []
  dot_S2048x1024_S1024x512_S2048x512_1_0_0_1_n_n_wf : DotDims.WF S2048x1024 S1024x512 S2048x512 [1] [0] [0] [1] [] []
  dot_S8192x256_S256x1433_S8192x1433_1_0_0_1_n_n_wf : DotDims.WF S8192x256 S256x1433 S8192x1433 [1] [0] [0] [1] [] []
  dot_S1024x512_S512x1536_S1024x1536_1_0_0_1_n_n_wf : DotDims.WF S1024x512 S512x1536 S1024x1536 [1] [0] [0] [1] [] []
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x8192.size a
  hwx0_5 : ∀ i : grid0.Coords, EltTy.bits .bf16 = 32 ∨ (Rect.block (s := S8192x8192) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .bf16 = 32 ∨ (Rect.block (s := S8192x8192) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S8192x512.size a
  hwx1_2 : ∀ i : grid1.Coords, EltTy.bits .f32 = 32 ∨ (Rect.block (s := S8192x512) S2048x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x8192.size a
  hwx2_0 : ∀ i : grid2.Coords, EltTy.bits .bf16 = 32 ∨ (Rect.block (s := S8192x8192) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1536.size a ≤ S8192x1536.size a
  hwx2_1 : ∀ i : grid2.Coords, EltTy.bits .bf16 = 32 ∨ (Rect.block (s := S8192x1536) S512x1536.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1536.size a ≤ S8192x1536.size a
  hwx2_2 : ∀ i : grid2.Coords, EltTy.bits .f32 = 32 ∨ (Rect.block (s := S8192x1536) S1024x1536.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S8192x256.size a
  hwx3_0 : ∀ i : grid3.Coords, EltTy.bits .bf16 = 32 ∨ (Rect.block (s := S8192x256) S2048x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S8192x256.size a
  hwx3_1 : ∀ i : grid3.Coords, EltTy.bits .bf16 = 32 ∨ (Rect.block (s := S8192x256) S1024x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1024.size a ≤ S8192x8192.size a
  hwx3_2 : ∀ i : grid3.Coords, EltTy.bits .f32 = 32 ∨ (Rect.block (s := S8192x8192) S2048x1024.size (cc3_transform_2 i) (hinb3_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S8192x256_S256x1433_S8192x1433_1_0_0_1_n_n : DotDims S8192x256 S256x1433 S8192x1433 where
  lhsContracting := [1]
  rhsContracting := [0]
  lhsNonContracting := [0]
  rhsNonContracting := [1]
  lhsBatch := []
  rhsBatch := []
  wf := dot_S8192x256_S256x1433_S8192x1433_1_0_0_1_n_n_wf
def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v2) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun _ => false | ⟨_ + 6, h⟩ => absurd h (Nat.not_lt.2 (Nat.le_add_left _ _))

abbrev win1_0 : Pipeline.Window sig grid1 :=
  Pipeline.Window.ofSpec (Memref.whole main_v6_1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v6_1) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S512x1536.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1024x1536.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v94) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v95) S2048x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S256x1 : Shape := ⟨2, ![256, 1]⟩
abbrev S128x256 : Shape := ⟨2, ![128, 256]⟩
abbrev S256 : Shape := ⟨1, ![256]⟩
abbrev S256x1433 : Shape := ⟨2, ![256, 1433]⟩
abbrev S1433 : Shape := ⟨1, ![1433]⟩
abbrev S128x1 : Shape := ⟨2, ![128, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩
abbrev S8192x256 : Shape := ⟨2, ![8192, 256]⟩
abbrev S1x256 : Shape := ⟨2, ![1, 256]⟩
abbrev S8192x1433 : Shape := ⟨2, ![8192, 1433]⟩
abbrev S1x1433 : Shape := ⟨2, ![1, 1433]⟩
abbrev S256x8192 : Shape := ⟨2, ![256, 8192]⟩

abbrev nBuf : Space → Nat
  | .hbm => 158
  | .vmem => 0
  | .smem => 0
  | _ => 0

abbrev hbmTy0_0 (i : Nat) : BufTy := match i % 128 with
  | 0 => ⟨S8192x128, .f32⟩
  | 1 => ⟨S8192x8192, .f32⟩
  | 2 => ⟨S128x128, .f32⟩
  | 3 => ⟨S256x1, .f32⟩
  | 4 => ⟨S128x256, .f32⟩
  | 5 => ⟨S256, .f32⟩
  | 6 => ⟨S256, .f32⟩
  | 7 => ⟨S256x1433, .f32⟩
  | 8 => ⟨S1433, .f32⟩
  | 9 => ⟨S1433, .f32⟩
  | 10 => ⟨S128x256, .f32⟩
  | 11 => ⟨S256, .f32⟩
  | 12 => ⟨S256, .f32⟩
  | 13 => ⟨S8192x128, .f32⟩
  | 14 => ⟨S128x1, .f32⟩
  | 15 => ⟨S8192x1, .f32⟩
  | 16 => ⟨S128x1, .f32⟩
  | 17 => ⟨S8192x1, .f32⟩
  | 18 => ⟨S1x8192, .f32⟩
  | 19 => ⟨S8192x8192, .f32⟩
  | 20 => ⟨S8192x8192, .f32⟩
  | 21 => ⟨S8192x8192, .f32⟩
  | 22 => ⟨S_, .f32⟩
  | 23 => ⟨S_, .f32⟩
  | 24 => ⟨S8192x8192, .f32⟩
  | 25 => ⟨S8192x8192, .i1⟩
  | 26 => ⟨S_, .f32⟩
  | 27 => ⟨S8192x8192, .f32⟩
  | 28 => ⟨S8192x8192, .f32⟩
  | 29 => ⟨S8192x8192, .f32⟩
  | 30 => ⟨S_, .f32⟩
  | 31 => ⟨S8192x8192, .f32⟩
  | 32 => ⟨S8192x8192, .i1⟩
  | 33 => ⟨S_, .f32⟩
  | 34 => ⟨S8192x8192, .f32⟩
  | 35 => ⟨S8192x8192, .f32⟩
  | 36 => ⟨S_, .f32⟩
  | 37 => ⟨S8192, .f32⟩
  | 38 => ⟨S_, .f32⟩
  | 39 => ⟨S8192, .f32⟩
  | 40 => ⟨S8192, .f32⟩
  | 41 => ⟨S8192x1, .f32⟩
  | 42 => ⟨S8192x8192, .f32⟩
  | 43 => ⟨S8192x8192, .f32⟩
  | 44 => ⟨S8192x8192, .f32⟩
  | 45 => ⟨S_, .f32⟩
  | 46 => ⟨S8192, .f32⟩
  | 47 => ⟨S8192x1, .f32⟩
  | 48 => ⟨S8192x8192, .f32⟩
  | 49 => ⟨S8192x8192, .f32⟩
  | 50 => ⟨S8192x128, .f32⟩
  | 51 => ⟨S8192x256, .f32⟩
  | 52 => ⟨S8192x256, .f32⟩
  | 53 => ⟨S_, .f32⟩
  | 54 => ⟨S8192x256, .f32⟩
  | 55 => ⟨S8192x256, .f32⟩
  | 56 => ⟨S_, .f32⟩
  | 57 => ⟨S256, .f32⟩
  | 58 => ⟨S_, .f32⟩
  | 59 => ⟨S256, .f32⟩
  | 60 => ⟨S256, .f32⟩
  | 61 => ⟨S1x256, .f32⟩
  | 62 => ⟨S8192x256, .f32⟩
  | 63 => ⟨S8192x256, .f32⟩
  | 64 => ⟨S8192x256, .f32⟩
  | 65 => ⟨S_, .f32⟩
  | 66 => ⟨S256, .f32⟩
  | 67 => ⟨S_, .f32⟩
  | 68 => ⟨S256, .f32⟩
  | 69 => ⟨S256, .f32⟩
  | 70 => ⟨S1x256, .f32⟩
  | 71 => ⟨S8192x256, .f32⟩
  | 72 => ⟨S8192x256, .f32⟩
  | 73 => ⟨S_, .f32⟩
  | 74 => ⟨S256, .f32⟩
  | 75 => ⟨S256, .f32⟩
  | 76 => ⟨S256, .f32⟩
  | 77 => ⟨S1x256, .f32⟩
  | 78 => ⟨S8192x256, .f32⟩
  | 79 => ⟨S8192x256, .f32⟩
  | 80 => ⟨S1x256, .f32⟩
  | 81 => ⟨S8192x256, .f32⟩
  | 82 => ⟨S8192x256, .f32⟩
  | 83 => ⟨S1x256, .f32⟩
  | 84 => ⟨S8192x256, .f32⟩
  | 85 => ⟨S8192x256, .f32⟩
  | 86 => ⟨S8192x1433, .f32⟩
  | 87 => ⟨S8192x1433, .f32⟩
  | 88 => ⟨S_, .f32⟩
  | 89 => ⟨S8192x1433, .f32⟩
  | 90 => ⟨S8192x1433, .f32⟩
  | 91 => ⟨S_, .f32⟩
  | 92 => ⟨S1433, .f32⟩
  | 93 => ⟨S_, .f32⟩
  | 94 => ⟨S1433, .f32⟩
  | 95 => ⟨S1433, .f32⟩
  | 96 => ⟨S1x1433, .f32⟩
  | 97 => ⟨S8192x1433, .f32⟩
  | 98 => ⟨S8192x1433, .f32⟩
  | 99 => ⟨S8192x1433, .f32⟩
  | 100 => ⟨S_, .f32⟩
  | 101 => ⟨S1433, .f32⟩
  | 102 => ⟨S_, .f32⟩
  | 103 => ⟨S1433, .f32⟩
  | 104 => ⟨S1433, .f32⟩
  | 105 => ⟨S1x1433, .f32⟩
  | 106 => ⟨S8192x1433, .f32⟩
  | 107 => ⟨S8192x1433, .f32⟩
  | 108 => ⟨S_, .f32⟩
  | 109 => ⟨S1433, .f32⟩
  | 110 => ⟨S1433, .f32⟩
  | 111 => ⟨S1433, .f32⟩
  | 112 => ⟨S1x1433, .f32⟩
  | 113 => ⟨S8192x1433, .f32⟩
  | 114 => ⟨S8192x1433, .f32⟩
  | 115 => ⟨S1x1433, .f32⟩
  | 116 => ⟨S8192x1433, .f32⟩
  | 117 => ⟨S8192x1433, .f32⟩
  | 118 => ⟨S1x1433, .f32⟩
  | 119 => ⟨S8192x1433, .f32⟩
  | 120 => ⟨S8192x1433, .f32⟩
  | 121 => ⟨S8192x256, .f32⟩
  | 122 => ⟨S8192x256, .f32⟩
  | 123 => ⟨S_, .f32⟩
  | 124 => ⟨S8192x256, .f32⟩
  | 125 => ⟨S8192x256, .f32⟩
  | 126 => ⟨S_, .f32⟩
  | 127 => ⟨S256, .f32⟩
  | _ => ⟨S8192x128, .f32⟩

abbrev hbmTy0_1 (i : Nat) : BufTy := match i % 128 with
  | 0 => ⟨S_, .f32⟩
  | 1 => ⟨S256, .f32⟩
  | 2 => ⟨S256, .f32⟩
  | 3 => ⟨S1x256, .f32⟩
  | 4 => ⟨S8192x256, .f32⟩
  | 5 => ⟨S8192x256, .f32⟩
  | 6 => ⟨S8192x256, .f32⟩
  | 7 => ⟨S_, .f32⟩
  | 8 => ⟨S256, .f32⟩
  | 9 => ⟨S_, .f32⟩
  | 10 => ⟨S256, .f32⟩
  | 11 => ⟨S256, .f32⟩
  | 12 => ⟨S1x256, .f32⟩
  | 13 => ⟨S8192x256, .f32⟩
  | 14 => ⟨S8192x256, .f32⟩
  | 15 => ⟨S_, .f32⟩
  | 16 => ⟨S256, .f32⟩
  | 17 => ⟨S256, .f32⟩
  | 18 => ⟨S256, .f32⟩
  | 19 => ⟨S1x256, .f32⟩
  | 20 => ⟨S8192x256, .f32⟩
  | 21 => ⟨S8192x256, .f32⟩
  | 22 => ⟨S1x256, .f32⟩
  | 23 => ⟨S8192x256, .f32⟩
  | 24 => ⟨S8192x256, .f32⟩
  | 25 => ⟨S1x256, .f32⟩
  | 26 => ⟨S8192x256, .f32⟩
  | 27 => ⟨S8192x256, .f32⟩
  | 28 => ⟨S256x8192, .f32⟩
  | 29 => ⟨S8192x8192, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_call1_v0 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_call2_cst : Ref sig .tc := ⟨.hbm, 53, rfl⟩
abbrev main_call2_v0 : Ref sig .tc := ⟨.hbm, 54, rfl⟩
abbrev main_v27 : Ref sig .tc := ⟨.hbm, 55, rfl⟩
abbrev main_cst_5 : Ref sig .tc := ⟨.hbm, 56, rfl⟩
abbrev main_v28 : Ref sig .tc := ⟨.hbm, 57, rfl⟩
abbrev main_cst_6 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_cst_8 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_call3_cst : Ref sig .tc := ⟨.hbm, 88, rfl⟩
abbrev main_call3_v0 : Ref sig .tc := ⟨.hbm, 89, rfl⟩
abbrev main_v55 : Ref sig .tc := ⟨.hbm, 90, rfl⟩
abbrev main_cst_10 : Ref sig .tc := ⟨.hbm, 91, rfl⟩
abbrev main_v56 : Ref sig .tc := ⟨.hbm, 92, rfl⟩
abbrev main_cst_11 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_12 : Ref sig .tc := ⟨.hbm, 100, rfl⟩
abbrev main_v63 : Ref sig .tc := ⟨.hbm, 101, rfl⟩
abbrev main_cst_13 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_14 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call4_cst : Ref sig .tc := ⟨.hbm, 123, rfl⟩
abbrev main_call4_v0 : Ref sig .tc := ⟨.hbm, 124, rfl⟩
abbrev main_v83 : Ref sig .tc := ⟨.hbm, 125, rfl⟩
abbrev main_cst_15 : Ref sig .tc := ⟨.hbm, 126, rfl⟩
abbrev main_v84 : Ref sig .tc := ⟨.hbm, 127, rfl⟩
abbrev main_cst_16 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_17 : Ref sig .tc := ⟨.hbm, 135, rfl⟩
abbrev main_v91 : Ref sig .tc := ⟨.hbm, 136, rfl⟩
abbrev main_cst_18 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_19 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩

abbrev nD : Nat := 1
abbrev τ : Topo := Topo.v7x

variable {F : FTy → Type} [FloatOps F]

class Facts₀ : Prop where
  slices_S256x1_S128x1_0_0 : S256x1.Slices ![0, 0] S128x1
  slices_S256x1_S128x1_128_0 : S256x1.Slices ![128, 0] S128x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x256 : S_.BroadcastsInDim S8192x256 (![] : Fin 0 → Fin S8192x256.rank)
  reducesTo_S8192x256_S256_d0 : S8192x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x1433 : S_.BroadcastsInDim S8192x1433 (![] : Fin 0 → Fin S8192x1433.rank)
  reducesTo_S8192x1433_S1433_d0 : S8192x1433.ReducesTo [0] S1433
  bcast_S_S1433 : S_.BroadcastsInDim S1433 (![] : Fin 0 → Fin S1433.rank)
  bcast_S1433_S1x1433_1 : S1433.BroadcastsInDim S1x1433 (![1] : Fin 1 → Fin S1x1433.rank)
  bcast_S1x1433_S8192x1433_0_1 : S1x1433.BroadcastsInDim S8192x1433 (![0, 1] : Fin 2 → Fin S8192x1433.rank)
  transposes_S8192x256_S256x8192_1_0 : S8192x256.Transposes [1, 0] S256x8192
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  dot_S8192x8192_S8192x128_S8192x128_1_0_0_1_n_n_wf : DotDims.WF S8192x8192 S8192x128 S8192x128 [1] [0] [0] [1] [] []
  dot_S8192x128_S128x256_S8192x256_1_0_0_1_n_n_wf : DotDims.WF S8192x128 S128x256 S8192x256 [1] [0] [0] [1] [] []
  dot_S8192x8192_S8192x256_S8192x256_1_0_0_1_n_n_wf : DotDims.WF S8192x8192 S8192x256 S8192x256 [1] [0] [0] [1] [] []
  dot_S8192x256_S256x1433_S8192x1433_1_0_0_1_n_n_wf : DotDims.WF S8192x256 S256x1433 S8192x1433 [1] [0] [0] [1] [] []
  dot_S8192x8192_S8192x1433_S8192x1433_1_0_0_1_n_n_wf : DotDims.WF S8192x8192 S8192x1433 S8192x1433 [1] [0] [0] [1] [] []
  dot_S8192x256_S256x8192_S8192x8192_1_0_0_1_n_n_wf : DotDims.WF S8192x256 S256x8192 S8192x8192 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x1433_S8192x1433_1_0_0_1_n_n : DotDims S8192x256 S256x1433 S8192x1433 where
  lhsContracting := [1]
  rhsContracting := [0]
  lhsNonContracting := [0]
  rhsNonContracting := [1]
  lhsBatch := []
  rhsBatch := []
  wf := dot_S8192x256_S256x1433_S8192x1433_1_0_0_1_n_n_wf
def dot_S8192x8192_S8192x1433_S8192x1433_1_0_0_1_n_n : DotDims S8192x8192 S8192x1433 S8192x1433 where
  lhsContracting := [1]
  rhsContracting := [0]
  lhsNonContracting := [0]
  rhsNonContracting := [1]
  lhsBatch := []
  rhsBatch := []
  wf := dot_S8192x8192_S8192x1433_S8192x1433_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KCommon.lean ====
import proofs.«400709_j481036337855_3_alg».proof.Proof.Gen.Kernel.Launch
import proofs.«400709_j481036337855_3_alg».proof.Proof.Gen.Kernel.Skeleton
import proofs.«400709_j481036337855_3_alg».proof.Proof.Gen.Kernel.Points
import proofs.«400709_j481036337855_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.SL Idealize.SL.BI Idealize.SL.BI.BIBase Cert.Kernel

variable {F : FTy → Type} [FloatOps F]

abbrev 𝒱₀ : Variants := Variants.none
abbrev L : GSem nD τ sig → Finset Unit := fun _ => ∅
abbrev lv : GSem nD τ sig → Unit → ℕ := fun _ _ => 0

abbrev R (c : Dev nD) : sProp (MT nD τ sig Unit (Elt F) ℕ (UR sig nD τ) ℕ) :=
  iprop((∃ r, prngReg c r) ∗ ∃ W, owes (c : Thread nD τ) (0 : CellTallies nD τ sig Unit) W)

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

end Cert.Kernel.Hand

end
-- ==== Proof.KReg0.lean ====
import proofs.«400709_j481036337855_3_alg».proof.Proof.KCommon
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev scM0 : Memref sig .tc .vmem S1024x1 .f32 := Memref.whole cc0_scratch0
abbrev scL0 : Memref sig .tc .vmem S1024x1 .f32 := Memref.whole cc0_scratch1
abbrev scA0 : Memref sig .tc .vmem S1024x128 .f32 := Memref.whole cc0_scratch2

abbrev St0 (F : FTy → Type) : Type := Vec F S1024x1 .f32 × Vec F S1024x1 .f32 × Vec F S1024x128 .f32

-- One step of the online softmax: new maximum, rescaled denominator plus row sums, rescaled numerator plus weights times features.
def step0 (x0 : Vec F S1024x1 .f32) (x1 : Vec F S1x1024 .f32) (x2 : Vec F S1024x128 .f32)
    (x3 : Vec F S1024x1024 .f32) (s : St0 F) : St0 F :=
  (k0_pay3 (k0_pay11 x0 x1 x3 s.1),
   k0_pay1 (k0_pay13 x0 x1 x3 s.1) (k0_pay14 x0 x1 x3 s.1 s.2.1),
   k0_pay2 (k0_pay8 x2) (k0_pay12 x0 x1 x3 s.1) (k0_pay13 x0 x1 x3 s.1) s.2.2)

def init0 : St0 F := (k0_pay5 (F := F), k0_pay6 (F := F), k0_pay7 (F := F))

-- The carried state after position n: one step from the reset state at the first column block of a row block, else one step from the state before.
def st0 (c : Dev nD) (n : ℕ) (hn : n < cfg0.N) : St0 F :=
  step0 (iblk0 V c 0 ⟨n, hn⟩) (iblk0 V c 1 ⟨n, hn⟩) (iblk0 V c 2 ⟨n, hn⟩) (iblk0 V c 3 ⟨n, hn⟩)
    (if h : n % 8 = 0 then init0 (F := F) else st0 c (n - 1) (Nat.lt_of_le_of_lt (Nat.sub_le _ _) hn))
termination_by n
decreasing_by omega

theorem st0_first (c : Dev nD) (t : Fin cfg0.N) (h : t.val % 8 = 0) :
    st0 V c t.val t.isLt
      = step0 (iblk0 V c 0 t) (iblk0 V c 1 t) (iblk0 V c 2 t) (iblk0 V c 3 t) (init0 (F := F)) := by
  rw [st0, dif_pos h]

theorem st0_next (c : Dev nD) (t : Fin cfg0.N) (h : t.val % 8 ≠ 0) :
    st0 V c t.val t.isLt
      = step0 (iblk0 V c 0 t) (iblk0 V c 1 t) (iblk0 V c 2 t) (iblk0 V c 3 t)
          (st0 V c (t.val - 1) (Nat.lt_of_le_of_lt (Nat.sub_le _ _) t.isLt)) := by
  rw [st0, dif_neg h]

def out0_4 (c : Dev nD) (t : Fin cfg0.N) : Vec F S1024x128 .f32 :=
  k0_pay4 (st0 V c t.val t.isLt).2.2 (st0 V c t.val t.isLt).2.1

def out0_5 (c : Dev nD) (t : Fin cfg0.N) : Vec F S1024x1024 .bf16 := k0_pay9 (iblk0 V c 3 t)

abbrev rest0 (c : Dev nD) : sProp 𝕄 :=
  Pipeline.scopedRestBut (Ix := Unit) (Name := ℕ) (U := UR sig nD τ) (Lvl := ℕ) (Val := Elt F) spec0 c
    [cc0_scratch0, cc0_scratch1, cc0_scratch2]

abbrev inv0 (c : Dev nD) (s : St0 F) : sProp 𝕄 :=
  iprop(owns c scM0 fullShare s.1 ∗ owns c scL0 fullShare s.2.1 ∗ owns c scA0 fullShare s.2.2
    ∗ rest0 (F := F) c ∗ ∃ r, prngReg c r)

-- Before position n the invariant holds at some state, which past the first position is the state the position before left.
abbrev PhiS0 (c : Dev nD) (n : ℕ) (h : n ≤ cfg0.N) : sProp 𝕄 :=
  iprop(∃ s, ⌜∀ hn : n ≠ 0, s = st0 V c (n - 1) (by omega)⌝ ∗ inv0 c s)

theorem scopedRest0_split (c : Dev nD) :
    (Pipeline.scopedRest (Ix := Unit) (Name := ℕ) (U := UR sig nD τ) (Lvl := ℕ) (Val := Elt F) spec0 c : sProp 𝕄)
      = iprop(((∃ d, owns c scM0 fullShare d) ∗ (∃ d, owns c scL0 fullShare d)
          ∗ (∃ d, owns c scA0 fullShare d)) ∗ rest0 (F := F) c) := by
  rw [Pipeline.scopedRest_split_of_list spec0 c [cc0_scratch0, cc0_scratch1, cc0_scratch2] (by decide) (by decide)]
  simp only [scM0, scL0, scA0, owns_whole]; rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 V c t
    | ⟨5, _⟩ => out0_5 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_4 (c : Dev nD) (t : Fin cfg0.N) : (dat0 V c).after 4 t = out0_4 V c t := by dsimp only [dat0]
theorem after0_5 (c : Dev nD) (t : Fin cfg0.N) : (dat0 V c).after 5 t = out0_5 V c t := by dsimp only [dat0]

abbrev cond0_a (i : grid0.Coords) : Prop :=
  (Scalar.cmpi .ne (Scalar.extui (Scalar.cmpi .eq (BitVec.ofNat 32 (i 1).val) 0#32)) 0#32) = 1#1
abbrev cond0_b (i : grid0.Coords) : Prop := k0_cond2 i = 1#1

theorem hcond0_a : ∀ t : Fin cfg0.N, cond0_a (grid0.coords t) ↔ t.val % 8 = 0 := by decide +kernel

theorem liveAt0 : ∀ (t : Fin cfg0.N) (w : Fin cfg0.W), w ≠ 4 → cfg0.idle w (grid0.coords t) = false := by decide +kernel
theorem idleAt0_4 : ∀ t : Fin cfg0.N, ¬ cond0_b (grid0.coords t) →
    cfg0.idle 4 (grid0.coords t) = true ∧ (cfg0.win 4).flush t = false := by decide +kernel
theorem liveAt0_4 : ∀ t : Fin cfg0.N, cond0_b (grid0.coords t) → cfg0.idle 4 (grid0.coords t) = false := by decide +kernel

theorem excl0 : ∀ t : Fin cfg0.N, cond0_a (grid0.coords t) → ¬ cond0_b (grid0.coords t) := by decide +kernel

theorem hz2 : (![0, 0] : Fin 2 → ℕ) = fun _ => 0 := by funext a; fin_cases a <;> rfl

theorem read_back_cons {S : Shape} {e : EltTy} (m : Memref sig .tc .vmem S e) (f : m.view.ty.Contents (Elt F))
    {off : Fin S.rank → ℕ} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

set_option maxHeartbeats 4000000 in
-- One triple for every control case: the two conditions say whether the step starts from the reset state and whether the quotient is taken.
theorem sound_kernel0 (c : Dev nD) (E : Set ℕ) (i : grid0.Coords)
    (arg2 : Memref sig .tc .vmem S1024x1 .f32) (harg2 : arg2.IsWhole) (arg3 : Memref sig .tc .vmem S1x1024 .f32) (harg3 : arg3.IsWhole)
    (arg4 : Memref sig .tc .vmem S1024x128 .f32) (harg4 : arg4.IsWhole) (arg5 : Memref sig .tc .vmem S1024x1024 .f32) (harg5 : arg5.IsWhole)
    (arg6 : Memref sig .tc .vmem S1024x128 .f32) (harg6 : arg6.IsWhole) (arg7 : Memref sig .tc .vmem S1024x1024 .bf16) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (x0 : Vec F S1024x1 .f32) (x1 : Vec F S1x1024 .f32) (x2 : Vec F S1024x128 .f32) (x3 : Vec F S1024x1024 .f32)
    (y4 : Vec F S1024x128 .f32) (y5 : Vec F S1024x1024 .bf16) (s S : St0 F)
    (hS : S = step0 x0 x1 x2 x3 (if cond0_a i then init0 (F := F) else s)) (hab : cond0_a i → ¬ cond0_b i)
    (K : PUnit → sProp 𝕄) :
    iprop(owns c arg2 fullShare x0 ∗ owns c arg3 fullShare x1 ∗ owns c arg4 fullShare x2 ∗ owns c arg5 fullShare x3
        ∗ owns c arg6 fullShare y4 ∗ owns c arg7 fullShare y5
        ∗ owns c arg8 fullShare s.1 ∗ owns c arg9 fullShare s.2.1 ∗ owns c arg10 fullShare s.2.2
        ∗ (iprop(owns c arg2 fullShare x0 ∗ owns c arg3 fullShare x1 ∗ owns c arg4 fullShare x2 ∗ owns c arg5 fullShare x3
            ∗ owns c arg6 fullShare (if cond0_b i then k0_pay4 S.2.2 S.2.1 else y4) ∗ owns c arg7 fullShare (k0_pay9 x3)
            ∗ owns c arg8 fullShare S.1 ∗ owns c arg9 fullShare S.2.1 ∗ owns c arg10 fullShare S.2.2) -∗ K ⟨⟩))
      ⊢ wp frame (wpE (defs₀ (F := F)) Variants.none c none) E
          (cc0__gat_kernel i arg2 harg2 arg3 harg3 arg4 harg4 arg5 harg5 arg6 harg6 arg7 harg7 arg8 harg8 arg9 harg9 arg10 harg10) K := by
  subst hS
  simp only [cc0__gat_kernel_eq_skeleton]; unfold cc0__gat_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%f8, %hf8, H8⟩, ⟨%f9, %hf9, H9⟩, ⟨%f10, %hf10, H10⟩, Hk⟩
  subst hf0; subst hf1; subst hf2; subst hf3; subst hf4
  obtain rfl := harg8.eq_unread hf8; obtain rfl := harg9.eq_unread hf9; obtain rfl := harg10.eq_unread hf10
  by_cases hc0 : cond0_a i <;> by_cases hc1 : cond0_b i <;> first | exact absurd hc1 (hab hc0) | (
    sl_exec (disch := first | exact hc0 | exact hc1)
    sl_step
    iapply Hk
    first | rw [if_pos hc0] | rw [if_neg hc0]
    first | rw [if_pos hc1] | rw [if_neg hc1]
    isplitl [H0]; swap; isplitl [H1]; swap; isplitl [H2]; swap; isplitl [H3]; swap
    isplitl [H4]; swap; isplitl [H5]; swap; isplitl [H8]; swap; isplitl [H9]; swap
    all_goals
      iexists _; isplitr; swap; · iassumption
      ipureintro
      first
      | ( refine (read_back_cons _ _ hz2 _ _ _).trans ?_
          sl_unfold_words
          simp only [step0, init0, View.readAt_eq_ld, Memref.IsWhole.read_unread,
            View.ld_unit_zero (S := S1024x1) hz2, View.ld_unit_zero (S := S1x1024) hz2,
            View.ld_unit_zero (S := S1024x128) hz2, View.ld_unit_zero (S := S1024x1024) hz2,
            View.readCov_cons_toLoadRect]
          try rfl )
      | rfl)

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

theorem st0_eq (c : Dev nD) (t : Fin cfg0.N) (s : St0 F) (hs : ∀ hn : t.val ≠ 0, s = st0 V c (t.val - 1) (by omega)) :
    st0 V c t.val t.isLt = step0 (iblk0 V c 0 t) (iblk0 V c 1 t) (iblk0 V c 2 t) (iblk0 V c 3 t)
      (if cond0_a (grid0.coords t) then init0 (F := F) else s) := by
  by_cases h : t.val % 8 = 0
  · rw [st0_first V c t h, if_pos ((hcond0_a t).mpr h)]
  · rw [st0_next V c t h, if_neg (mt (hcond0_a t).mp h), hs fun e => h (by rw [e])]

theorem leaves0_4 (c : Dev nD) (t : Fin cfg0.N) (d) :
    owns c (st0_4 t) fullShare (if cond0_b (grid0.coords t) then k0_pay4 (st0 V c t.val t.isLt).2.2 (st0 V c t.val t.isLt).2.1
      else (dat0 V c).before 4 t d) ⊢ (dat0 V c).leavesExact 4 t := by
  by_cases h : cond0_b (grid0.coords t)
  · rw [if_pos h]; unfold Dat.leavesExact; rw [liveAt0_4 t h, after0_4]; exact .rfl
  · rw [if_neg h, Dat.leavesExact_idle _ 4 t (idleAt0_4 t h).1 (idleAt0_4 t h).2]
    iintro H; iexists d; iexact H

theorem body_obligation0 (c : Dev nD) :
    BodyObligation (dat0 (F := F) V c) (defs₀ (F := F)) Variants.none () Set.univ := fun t => by
  rw [bigSep_W0, bigSep_W0]
  show _ ⊢ wp frame _ Set.univ (bodyAt0 t) _
  unfold bodyAt0
  simp only [before0_0, before0_1, before0_2, before0_3,
    liveAt0 t 0 (by decide), liveAt0 t 1 (by decide), liveAt0 t 2 (by decide), liveAt0 t 3 (by decide), liveAt0 t 5 (by decide),
    show (dat0 V c).after 0 t = iblk0 V c 0 t from rfl, show (dat0 V c).after 1 t = iblk0 V c 1 t from rfl,
    show (dat0 V c).after 2 t = iblk0 V c 2 t from rfl, show (dat0 V c).after 3 t = iblk0 V c 3 t from rfl, after0_5]
  rw [show (dat0 V c).owesAt () t.succ = (dat0 V c).owesAt () t.castSucc from rfl,
    show (dat0 V c).Φ t.succ = PhiS0 V c (t.val + 1) t.isLt from rfl,
    show (dat0 V c).Φ t.castSucc = PhiS0 V c t.val (Nat.le_of_lt t.isLt) from rfl]
  unfold out0_5 PhiS0 inv0
  iintro ⟨HP, Ho, ⟨%d0, H0⟩, ⟨%d1, H1⟩, ⟨%d2, H2⟩, ⟨%d3, H3⟩, ⟨%d4, H4⟩, ⟨%d5, H5⟩⟩
  icases HP with ⟨%s, %hs, HM, HL, HA, Hr, Hg⟩
  iapply (sound_kernel0 c Set.univ (grid0.coords t) _ _ _ _ _ _ _ _ _ _ _ _ _ _ _ _ _ _ (iblk0 V c 0 t) (iblk0 V c 1 t) (iblk0 V c 2 t) (iblk0 V c 3 t)
    ((dat0 V c).before 4 t d4) ((dat0 V c).before 5 t d5) s _ (st0_eq V c t s hs) (excl0 t) _)
  iframe
  iintro ⟨H0, H1, H2, H3, H4, H5, HM, HL, HA⟩
  isplitl [HM HL HA Hr Hg]
  · iexists st0 V c t.val t.isLt; isplitr; · ipureintro; exact fun _ => rfl
    iframe
  iframe
  iapply (leaves0_4 V c t d4)
  iexact H4

theorem hin0 (c : Dev nD) :
    (iprop((∃ r, prngReg c r) ∗ Pipeline.scopedRest (Ix := Unit) (Name := ℕ) (U := UR sig nD τ) (Lvl := ℕ) (Val := Elt F) spec0 c) : sProp 𝕄)
      ⊢ (dat0 V c).Φ 0 := by
  rw [scopedRest0_split]
  show _ ⊢ PhiS0 V c 0 (Nat.zero_le _)
  iintro ⟨Hg, ⟨⟨%m, HM⟩, ⟨%l, HL⟩, ⟨%a, HA⟩⟩, Hr⟩
  iexists (m, l, a); isplitr; · ipureintro; exact fun hn => absurd rfl hn
  unfold inv0; iframe

theorem hout0 (c : Dev nD) :
    (dat0 V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := by
  rw [scopedRest0_split]
  show PhiS0 V c cfg0.N le_rfl ⊢ _
  iintro ⟨%s, -, HM, HL, HA, Hr, Hg⟩
  iframe
  isplitl [HM]; · iexists _; iexact HM
  isplitl [HL]; · iexists _; iexact HL
  iexists _; iexact HA

end Cert.Kernel.Hand

end
-- ==== Proof.KReg1.lean ====
import proofs.«400709_j481036337855_3_alg».proof.Proof.KCommon
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev scM1 : Memref sig .tc .vmem S2048x512 .f32 := Memref.whole cc1_scratch0

-- The running sum of block products over the column blocks of a row block, restarted at each first column block.
noncomputable def acc1 (c : Dev nD) : (n : ℕ) → n < cfg1.N → Vec F S2048x512 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h : t.val % 8 = 0) :
    acc1 V c t.val t.isLt = k1_pay2 (iblk1 V c 0 t) (iblk1 V c 1 t) (k1_pay1 (F := F)) := by
  obtain ⟨n, hn⟩ := t
  cases n with
  | zero => rfl
  | succ n => exact (if_pos h).trans rfl

theorem acc1_next (c : Dev nD) (t : Fin cfg1.N) (h : t.val % 8 ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

noncomputable def out1 (c : Dev nD) (t : Fin cfg1.N) : Vec F S2048x512 .f32 := k1_pay3 (acc1 V c t.val t.isLt)

abbrev PhiS1_rest (c : Dev nD) : sProp 𝕄 :=
  iprop(Pipeline.scopedRestBut (Ix := Unit) (Name := ℕ) (U := UR sig nD τ) (Lvl := ℕ) (Val := Elt F) spec1 c [cc1_scratch0]
    ∗ ∃ r, prngReg c r)

noncomputable def PhiS1 (c : Dev nD) : (n : ℕ) → n ≤ cfg1.N → sProp 𝕄
  | 0, _ => Pipeline.ΦA spec1 c
  | n + 1, hn => iprop(owns c.tc scM1 fullShare (acc1 V c n (Nat.lt_of_succ_le hn)) ∗ PhiS1_rest c)

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_2 (c : Dev nD) (t : Fin cfg1.N) : (dat1 V c).after 2 t = out1 V c t := rfl

theorem before1_in (c : Dev nD) (t : Fin cfg1.N) :
    (∀ d, (dat1 V c).before 0 t d = iblk1 V c 0 t) ∧ ∀ d, (dat1 V c).before 1 t d = iblk1 V c 1 t := by
  constructor <;> intro d <;>
  exact ((dat1 V c).before_in_eq_fetched _ rfl (fun _ => rfl) (fun _ _ _ => rfl)
    (fun t => by dsimp only [dat1]; unfold Dat.blockOf iblk1; try rfl) t d).trans
    (by unfold Dat.fetched Dat.blockOf iblk1; rw [A_eq1]; try rfl)

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_in : ∀ t : Fin cfg1.N, cfg1.idle 0 (grid1.coords t) = false ∧ cfg1.idle 1 (grid1.coords t) = false := by
  decide +kernel
theorem idleAt1_2 : ∀ t : Fin cfg1.N, ¬cond1_1 (grid1.coords t) →
    cfg1.idle 2 (grid1.coords t) = true ∧ (cfg1.win 2).flush t = false := by decide +kernel
theorem liveAt1_2 : ∀ t : Fin cfg1.N, cond1_1 (grid1.coords t) → cfg1.idle 2 (grid1.coords t) = false := by decide +kernel

theorem hz1 : (![0, 0] : Fin S2048x512.rank → ℕ) = fun _ => 0 := by
  funext a; match a with | ⟨0, _⟩ => rfl | ⟨1, _⟩ => rfl

abbrev rS1 : Rect S2048x512 := Rect.unit ![0, 0] S2048x512.size inb_S2048x512_S2048x512_0_0

-- After a list of writes whose last one covers every index, every read returns that last write's value.
theorem hz1_read {κ : Kind} {sp : Space} {e : EltTy} (v : View sig κ sp S2048x512 e)
    (w : S2048x512.Idx → Elt F e) (L : List (View.Piece (Elt F) S2048x512 e)) :
    (∀ f, v.read (Elt F) (v.writes (Elt F) f (⟨rS1, w⟩ :: L)) = w) ∧ v.readCov (⟨rS1, w⟩ :: L) rS1.toLoadRect = w := by
  have h (y) : ∃ p ∈ (⟨rS1, w⟩ :: L : List (View.Piece (Elt F) S2048x512 e)), y ∈ p.1.set :=
    ⟨_, List.mem_cons.mpr (Or.inl rfl), View.mem_set_unit_zero hz1 inb_S2048x512_S2048x512_0_0 y⟩
  exact ⟨fun _ => (View.read_writes_eq_canon _ _ _ h).trans (View.canon_cons_unit_zero hz1 _ _ _),
    (View.readCov_eq_canon_ld _ _ _ h).trans (by rw [View.canon_cons_unit_zero hz1, View.ld_unit_zero hz1])⟩

-- The body adds the product of its input blocks to the accumulator, zeroed first at the first column block, and at the last one writes out the rectified sum.
theorem kernel1_run (c : Dev nD) (E : Set ℕ) (i : grid1.Coords)
    (arg2 : Memref sig .tc .vmem S2048x1024 .bf16) (harg2 : arg2.IsWhole) (arg3 : Memref sig .tc .vmem S1024x512 .bf16) (harg3 : arg3.IsWhole)
    (arg4 : Memref sig .tc .vmem S2048x512 .f32) (harg4 : arg4.IsWhole) (arg5 : Memref sig .tc .vmem S2048x512 .f32) (harg5 : arg5.IsWhole)
    (x0 : Vec F S2048x1024 .bf16) (x1 : Vec F S1024x512 .bf16) (xi2 xs : Vec F S2048x512 .f32) (K : PUnit → sProp 𝕄) :
    iprop(owns c.tc arg2 fullShare x0 ∗ owns c.tc arg3 fullShare x1 ∗ owns c.tc arg4 fullShare xi2
        ∗ owns c.tc arg5 fullShare xs
        ∗ (iprop(owns c.tc arg2 fullShare x0 ∗ owns c.tc arg3 fullShare x1
            ∗ owns c.tc arg4 fullShare (if cond1_1 i then k1_pay3 (k1_pay2 x0 x1 (if cond1_0 i then k1_pay1 (F := F) else xs)) else xi2)
            ∗ owns c.tc arg5 fullShare (k1_pay2 x0 x1 (if cond1_0 i then k1_pay1 (F := F) else xs))) -∗ K ⟨⟩))
      ⊢ wp frame (wpE (defs₀ (F := F)) Variants.none c none) E (cc1__gcn_kernel i arg2 harg2 arg3 harg3 arg4 harg4 arg5 harg5) K := by
  by_cases hc0 : cond1_0 i <;> by_cases hc1 : cond1_1 i <;>
    (first | rw [if_pos hc0] | rw [if_neg hc0]) <;> (first | rw [if_pos hc1] | rw [if_neg hc1])
  all_goals
    simp only [cc1__gcn_kernel_eq_skeleton]; unfold cc1__gcn_kernel_skel owns
    iintro ⟨⟨%f0, %hf0, H0⟩, ⟨%f1, %hf1, H1⟩, ⟨%f2, %hf2, H2⟩, ⟨%fs, %hfs, HS⟩, Hk⟩
    subst hf0; subst hf1; subst hf2; subst hfs
    sl_exec (disch := first | exact hc0 | exact hc1)
    sl_step
    iapply Hk
    isplitl [H0]; rotate_left; isplitl [H1]; rotate_left; isplitl [H2]; rotate_left
    all_goals
      iexists _; isplitr
      swap; · iassumption
      ipureintro
      first
      | with_reducible rfl
      | sl_unfold_words
        rw [(hz1_read _ _ _).1]
        simp only [(hz1_read _ _ _).2, View.readAt_eq_ld, View.ld_unit_zero (S := S2048x1024) hz1, View.ld_unit_zero (S := S1024x512) hz1,
          View.ld_unit_zero (S := S2048x512) hz1]

-- Before every position the accumulator holds some value; past the first position, the value the previous one left.
theorem PhiS1_open (c : Dev nD) (j : Fin (cfg1.N + 1)) :
    (dat1 V c).Φ j ⊢ iprop(∃ xs, ⌜∀ hz : j.val ≠ 0, xs = acc1 V c (j.val - 1) (by have := j.isLt; omega)⌝
      ∗ owns c.tc scM1 fullShare xs ∗ PhiS1_rest c) := by
  obtain ⟨n, hn⟩ := j
  show PhiS1 V c n _ ⊢ _
  cases n with
  | zero =>
    unfold PhiS1 Pipeline.ΦA PhiS1_rest; rw [scopedRest1_split]
    iintro ⟨⟨⟨%d, HS⟩, Hr⟩, Hg⟩
    iexists d; isplitr; · ipureintro; exact fun hz => absurd rfl hz
    rw [owns_whole]; iframe
  | succ n =>
    unfold PhiS1
    iintro H; iexists _; isplitr; swap; · iexact H
    ipureintro; exact fun _ => rfl

-- One step of the running sum, whichever column block the position is in.
theorem acc1_step (c : Dev nD) (t : Fin cfg1.N) (xs : Vec F S2048x512 .f32)
    (h : t.val ≠ 0 → xs = acc1 V c (t.val - 1) (Nat.lt_of_le_of_lt (Nat.sub_le _ _) t.isLt)) :
    k1_pay2 (iblk1 V c 0 t) (iblk1 V c 1 t) (if cond1_0 (grid1.coords t) then k1_pay1 (F := F) else xs)
      = acc1 V c t.val t.isLt := by
  by_cases h0 : t.val % 8 = 0
  · rw [if_pos ((hcond1_0 t).mpr h0), acc1_first V c t h0]
  · rw [if_neg (mt (hcond1_0 t).mp h0), acc1_next V c t h0, h fun hz => h0 (by rw [hz])]

-- The output block after the body: the rectified sum at the last column block, unchanged elsewhere.
theorem after1_leaves (c : Dev nD) (t : Fin cfg1.N) (d) :
    owns c.tc (st1_2 t) fullShare
        (if cond1_1 (grid1.coords t) then k1_pay3 (acc1 V c t.val t.isLt) else (dat1 V c).before 2 t d)
      ⊢ (dat1 V c).leavesExact 2 t := by
  by_cases hc1 : cond1_1 (grid1.coords t)
  · rw [if_pos hc1]; unfold Dat.leavesExact; rw [liveAt1_2 t hc1]
    iintro H; iexact H
  · rw [if_neg hc1, Dat.leavesExact_idle (dat1 V c) 2 t (idleAt1_2 t hc1).1 (idleAt1_2 t hc1).2]
    iintro H; iexists _; iexact H

theorem sound_body1 (c : Dev nD) (t : Fin cfg1.N) :
    iprop((dat1 V c).Φ t.castSucc ∗ (dat1 V c).owesAt () t.castSucc
        ∗ (∃ d, owns c.tc (st1_0 t) fullShare ((dat1 V c).before 0 t d))
        ∗ (∃ d, owns c.tc (st1_1 t) fullShare ((dat1 V c).before 1 t d))
        ∗ (∃ d, owns c.tc (st1_2 t) fullShare ((dat1 V c).before 2 t d)))
      ⊢ wp frame (wpE (defs₀ (F := F)) Variants.none c none) Set.univ (bodyAt1 t) fun _ =>
        iprop((dat1 V c).Φ t.succ ∗ (dat1 V c).owesAt () t.succ
          ∗ (dat1 V c).leavesExact 0 t ∗ (dat1 V c).leavesExact 1 t ∗ (dat1 V c).leavesExact 2 t) := by
  unfold bodyAt1
  simp only [(before1_in V c t).1, (before1_in V c t).2]
  rw [show (dat1 V c).owesAt () t.succ = (dat1 V c).owesAt () t.castSucc from rfl,
    show (dat1 V c).Φ t.succ = iprop(owns c.tc scM1 fullShare (acc1 V c t.val t.isLt) ∗ PhiS1_rest c) from rfl,
    show (dat1 V c).leavesExact 0 t = owns c.tc (st1_0 t) fullShare (iblk1 V c 0 t) from by
      unfold Dat.leavesExact; rw [(liveAt1_in t).1]; rfl,
    show (dat1 V c).leavesExact 1 t = owns c.tc (st1_1 t) fullShare (iblk1 V c 1 t) from by
      unfold Dat.leavesExact; rw [(liveAt1_in t).2]; rfl]
  iintro ⟨HΦ, Ho, ⟨%d0, H0⟩, ⟨%d1, H1⟩, ⟨%d2, H2⟩⟩
  ihave ⟨%xs, %hxs, HS, Hr⟩ := (PhiS1_open V c t.castSucc) $$ HΦ
  iapply (kernel1_run c Set.univ (grid1.coords t) _ _ _ _ _ _ _ _ (iblk1 V c 0 t) (iblk1 V c 1 t) ((dat1 V c).before 2 t d2) xs _)
  iframe H0 H1 H2 HS
  iintro ⟨H0, H1, H2, HS⟩
  rw [acc1_step V c t xs hxs]
  iframe HS Hr Ho H0 H1
  iapply (after1_leaves V c t d2); iexact H2

theorem body_obligation1 (c : Dev nD) :
    BodyObligation (dat1 (F := F) V c) (defs₀ (F := F)) Variants.none () Set.univ := fun t => by
  rw [bigSep_W1, bigSep_W1]
  exact sound_body1 V c t

theorem hin1 (c : Dev nD) :
    (iprop((∃ r, prngReg c r) ∗ Pipeline.scopedRest (Ix := Unit) (Name := ℕ) (U := UR sig nD τ) (Lvl := ℕ) (Val := Elt F) spec1 c) : sProp 𝕄)
      ⊢ (dat1 V c).Φ 0 := by
  show _ ⊢ Pipeline.ΦA spec1 c
  unfold Pipeline.ΦA
  iintro ⟨Hg, Hr⟩
  iframe

theorem hout1 (c : Dev nD) :
    (dat1 V c).Φ (Fin.last cfg1.N)
      ⊢ (iprop((∃ r, prngReg c r) ∗ Pipeline.scopedRest (Ix := Unit) (Name := ℕ) (U := UR sig nD τ) (Lvl := ℕ) (Val := Elt F) spec1 c) : sProp 𝕄) := by
  rw [scopedRest1_split]
  have h := PhiS1_open V c (Fin.last cfg1.N)
  simp only [scM1, owns_whole] at h
  iintro H
  ihave ⟨%xs, -, HS, Hr, Hg⟩ := h $$ H
  iframe Hg Hr
  iexists _; iexact HS

end Cert.Kernel.Hand

end
-- ==== Proof.KReg2.lean ====
import proofs.«400709_j481036337855_3_alg».proof.Proof.KCommon
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

abbrev scM2 : Memref sig .tc .vmem S1024x1536 .f32 := Memref.whole cc2_scratch0

-- The running sum of block products over the column blocks of a row block, restarted at each first column block.
noncomputable def acc2 (c : Dev nD) : (n : ℕ) → n < cfg2.N → Vec F S1024x1536 .f32
  | 0, hn => k2_pay2 (iblk2 V c 0 ⟨0, hn⟩) (iblk2 V c 1 ⟨0, hn⟩) (k2_pay1 (F := F))
  | n + 1, hn =>
    if (n + 1) % 16 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (acc2 c n (Nat.lt_of_succ_lt hn))

theorem acc2_first (c : Dev nD) (t : Fin cfg2.N) (h : t.val % 16 = 0) :
    acc2 V c t.val t.isLt = k2_pay2 (iblk2 V c 0 t) (iblk2 V c 1 t) (k2_pay1 (F := F)) := by
  obtain ⟨n, hn⟩ := t
  cases n with
  | zero => rfl
  | succ n => exact (if_pos h).trans rfl

theorem acc2_next (c : Dev nD) (t : Fin cfg2.N) (h : t.val % 16 ≠ 0) :
    acc2 V c t.val t.isLt
      = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact (if_neg h).trans rfl

noncomputable def out2 (c : Dev nD) (t : Fin cfg2.N) : Vec F S1024x1536 .f32 := k2_pay3 (acc2 V c t.val t.isLt)

abbrev PhiS2_rest (c : Dev nD) : sProp 𝕄 :=
  iprop(Pipeline.scopedRestBut (Ix := Unit) (Name := ℕ) (U := UR sig nD τ) (Lvl := ℕ) (Val := Elt F) spec2 c [cc2_scratch0]
    ∗ ∃ r, prngReg c r)

noncomputable def PhiS2 (c : Dev nD) : (n : ℕ) → n ≤ cfg2.N → sProp 𝕄
  | 0, _ => Pipeline.ΦA spec2 c
  | n + 1, hn => iprop(owns c.tc scM2 fullShare (acc2 V c n (Nat.lt_of_succ_le hn)) ∗ PhiS2_rest c)

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_2 (c : Dev nD) (t : Fin cfg2.N) : (dat2 V c).after 2 t = out2 V c t := rfl

theorem before2_in (c : Dev nD) (t : Fin cfg2.N) :
    (∀ d, (dat2 V c).before 0 t d = iblk2 V c 0 t) ∧ ∀ d, (dat2 V c).before 1 t d = iblk2 V c 1 t := by
  constructor <;> intro d <;>
  exact ((dat2 V c).before_in_eq_fetched _ rfl (fun _ => rfl) (fun _ _ _ => rfl)
    (fun t => by dsimp only [dat2]; unfold Dat.blockOf iblk2; try rfl) t d).trans
    (by unfold Dat.fetched Dat.blockOf iblk2; rw [A_eq2]; try rfl)

abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

theorem liveAt2_in : ∀ t : Fin cfg2.N, cfg2.idle 0 (grid2.coords t) = false ∧ cfg2.idle 1 (grid2.coords t) = false := by
  decide +kernel
theorem idleAt2_2 : ∀ t : Fin cfg2.N, ¬cond2_1 (grid2.coords t) →
    cfg2.idle 2 (grid2.coords t) = true ∧ (cfg2.win 2).flush t = false := by decide +kernel
theorem liveAt2_2 : ∀ t : Fin cfg2.N, cond2_1 (grid2.coords t) → cfg2.idle 2 (grid2.coords t) = false := by decide +kernel

theorem hz2 : (![0, 0] : Fin S1024x1536.rank → ℕ) = fun _ => 0 := by
  funext a; match a with | ⟨0, _⟩ => rfl | ⟨1, _⟩ => rfl

abbrev rS2 : Rect S1024x1536 := Rect.unit ![0, 0] S1024x1536.size inb_S1024x1536_S1024x1536_0_0

-- After a list of writes whose last one covers every index, every read returns that last write's value.
theorem hz2_read {κ : Kind} {sp : Space} {e : EltTy} (v : View sig κ sp S1024x1536 e)
    (w : S1024x1536.Idx → Elt F e) (L : List (View.Piece (Elt F) S1024x1536 e)) :
    (∀ f, v.read (Elt F) (v.writes (Elt F) f (⟨rS2, w⟩ :: L)) = w) ∧ v.readCov (⟨rS2, w⟩ :: L) rS2.toLoadRect = w := by
  have h (y) : ∃ p ∈ (⟨rS2, w⟩ :: L : List (View.Piece (Elt F) S1024x1536 e)), y ∈ p.1.set :=
    ⟨_, List.mem_cons.mpr (Or.inl rfl), View.mem_set_unit_zero hz2 inb_S1024x1536_S1024x1536_0_0 y⟩
  exact ⟨fun _ => (View.read_writes_eq_canon _ _ _ h).trans (View.canon_cons_unit_zero hz2 _ _ _),
    (View.readCov_eq_canon_ld _ _ _ h).trans (by rw [View.canon_cons_unit_zero hz2, View.ld_unit_zero hz2])⟩

-- The body adds the product of its input blocks to the accumulator, zeroed first at the first column block, and at the last one writes out the rectified sum.
theorem kernel2_run (c : Dev nD) (E : Set ℕ) (i : grid2.Coords)
    (arg2 : Memref sig .tc .vmem S1024x512 .bf16) (harg2 : arg2.IsWhole) (arg3 : Memref sig .tc .vmem S512x1536 .bf16) (harg3 : arg3.IsWhole)
    (arg4 : Memref sig .tc .vmem S1024x1536 .f32) (harg4 : arg4.IsWhole) (arg5 : Memref sig .tc .vmem S1024x1536 .f32) (harg5 : arg5.IsWhole)
    (x0 : Vec F S1024x512 .bf16) (x1 : Vec F S512x1536 .bf16) (xi2 xs : Vec F S1024x1536 .f32) (K : PUnit → sProp 𝕄) :
    iprop(owns c.tc arg2 fullShare x0 ∗ owns c.tc arg3 fullShare x1 ∗ owns c.tc arg4 fullShare xi2
        ∗ owns c.tc arg5 fullShare xs
        ∗ (iprop(owns c.tc arg2 fullShare x0 ∗ owns c.tc arg3 fullShare x1
            ∗ owns c.tc arg4 fullShare (if cond2_1 i then k2_pay3 (k2_pay2 x0 x1 (if cond2_0 i then k2_pay1 (F := F) else xs)) else xi2)
            ∗ owns c.tc arg5 fullShare (k2_pay2 x0 x1 (if cond2_0 i then k2_pay1 (F := F) else xs))) -∗ K ⟨⟩))
      ⊢ wp frame (wpE (defs₀ (F := F)) Variants.none c none) E (cc2__gcn_kernel i arg2 harg2 arg3 harg3 arg4 harg4 arg5 harg5) K := by
  by_cases hc0 : cond2_0 i <;> by_cases hc1 : cond2_1 i <;>
    (first | rw [if_pos hc0] | rw [if_neg hc0]) <;> (first | rw [if_pos hc1] | rw [if_neg hc1])
  all_goals
    simp only [cc2__gcn_kernel_eq_skeleton]; unfold cc2__gcn_kernel_skel owns
    iintro ⟨⟨%f0, %hf0, H0⟩, ⟨%f1, %hf1, H1⟩, ⟨%f2, %hf2, H2⟩, ⟨%fs, %hfs, HS⟩, Hk⟩
    subst hf0; subst hf1; subst hf2; subst hfs
    sl_exec (disch := first | exact hc0 | exact hc1)
    sl_step
    iapply Hk
    isplitl [H0]; rotate_left; isplitl [H1]; rotate_left; isplitl [H2]; rotate_left
    all_goals
      iexists _; isplitr
      swap; · iassumption
      ipureintro
      first
      | with_reducible rfl
      | sl_unfold_words
        rw [(hz2_read _ _ _).1]
        simp only [(hz2_read _ _ _).2, View.readAt_eq_ld, View.ld_unit_zero (S := S1024x512) hz2, View.ld_unit_zero (S := S512x1536) hz2,
          View.ld_unit_zero (S := S1024x1536) hz2]

-- Before every position the accumulator holds some value; past the first position, the value the previous one left.
theorem PhiS2_open (c : Dev nD) (j : Fin (cfg2.N + 1)) :
    (dat2 V c).Φ j ⊢ iprop(∃ xs, ⌜∀ hz : j.val ≠ 0, xs = acc2 V c (j.val - 1) (by have := j.isLt; omega)⌝
      ∗ owns c.tc scM2 fullShare xs ∗ PhiS2_rest c) := by
  obtain ⟨n, hn⟩ := j
  show PhiS2 V c n _ ⊢ _
  cases n with
  | zero =>
    unfold PhiS2 Pipeline.ΦA PhiS2_rest; rw [scopedRest2_split]
    iintro ⟨⟨⟨%d, HS⟩, Hr⟩, Hg⟩
    iexists d; isplitr; · ipureintro; exact fun hz => absurd rfl hz
    rw [owns_whole]; iframe
  | succ n =>
    unfold PhiS2
    iintro H; iexists _; isplitr; swap; · iexact H
    ipureintro; exact fun _ => rfl

-- One step of the running sum, whichever column block the position is in.
theorem acc2_step (c : Dev nD) (t : Fin cfg2.N) (xs : Vec F S1024x1536 .f32)
    (h : t.val ≠ 0 → xs = acc2 V c (t.val - 1) (Nat.lt_of_le_of_lt (Nat.sub_le _ _) t.isLt)) :
    k2_pay2 (iblk2 V c 0 t) (iblk2 V c 1 t) (if cond2_0 (grid2.coords t) then k2_pay1 (F := F) else xs)
      = acc2 V c t.val t.isLt := by
  by_cases h0 : t.val % 16 = 0
  · rw [if_pos ((hcond2_0 t).mpr h0), acc2_first V c t h0]
  · rw [if_neg (mt (hcond2_0 t).mp h0), acc2_next V c t h0, h fun hz => h0 (by rw [hz])]

-- The output block after the body: the rectified sum at the last column block, unchanged elsewhere.
theorem after2_leaves (c : Dev nD) (t : Fin cfg2.N) (d) :
    owns c.tc (st2_2 t) fullShare
        (if cond2_1 (grid2.coords t) then k2_pay3 (acc2 V c t.val t.isLt) else (dat2 V c).before 2 t d)
      ⊢ (dat2 V c).leavesExact 2 t := by
  by_cases hc1 : cond2_1 (grid2.coords t)
  · rw [if_pos hc1]; unfold Dat.leavesExact; rw [liveAt2_2 t hc1]
    iintro H; iexact H
  · rw [if_neg hc1, Dat.leavesExact_idle (dat2 V c) 2 t (idleAt2_2 t hc1).1 (idleAt2_2 t hc1).2]
    iintro H; iexists _; iexact H

theorem sound_body2 (c : Dev nD) (t : Fin cfg2.N) :
    iprop((dat2 V c).Φ t.castSucc ∗ (dat2 V c).owesAt () t.castSucc
        ∗ (∃ d, owns c.tc (st2_0 t) fullShare ((dat2 V c).before 0 t d))
        ∗ (∃ d, owns c.tc (st2_1 t) fullShare ((dat2 V c).before 1 t d))
        ∗ (∃ d, owns c.tc (st2_2 t) fullShare ((dat2 V c).before 2 t d)))
      ⊢ wp frame (wpE (defs₀ (F := F)) Variants.none c none) Set.univ (bodyAt2 t) fun _ =>
        iprop((dat2 V c).Φ t.succ ∗ (dat2 V c).owesAt () t.succ
          ∗ (dat2 V c).leavesExact 0 t ∗ (dat2 V c).leavesExact 1 t ∗ (dat2 V c).leavesExact 2 t) := by
  unfold bodyAt2
  simp only [(before2_in V c t).1, (before2_in V c t).2]
  rw [show (dat2 V c).owesAt () t.succ = (dat2 V c).owesAt () t.castSucc from rfl,
    show (dat2 V c).Φ t.succ = iprop(owns c.tc scM2 fullShare (acc2 V c t.val t.isLt) ∗ PhiS2_rest c) from rfl,
    show (dat2 V c).leavesExact 0 t = owns c.tc (st2_0 t) fullShare (iblk2 V c 0 t) from by
      unfold Dat.leavesExact; rw [(liveAt2_in t).1]; rfl,
    show (dat2 V c).leavesExact 1 t = owns c.tc (st2_1 t) fullShare (iblk2 V c 1 t) from by
      unfold Dat.leavesExact; rw [(liveAt2_in t).2]; rfl]
  iintro ⟨HΦ, Ho, ⟨%d0, H0⟩, ⟨%d1, H1⟩, ⟨%d2, H2⟩⟩
  ihave ⟨%xs, %hxs, HS, Hr⟩ := (PhiS2_open V c t.castSucc) $$ HΦ
  iapply (kernel2_run c Set.univ (grid2.coords t) _ _ _ _ _ _ _ _ (iblk2 V c 0 t) (iblk2 V c 1 t) ((dat2 V c).before 2 t d2) xs _)
  iframe H0 H1 H2 HS
  iintro ⟨H0, H1, H2, HS⟩
  rw [acc2_step V c t xs hxs]
  iframe HS Hr Ho H0 H1
  iapply (after2_leaves V c t d2); iexact H2

theorem body_obligation2 (c : Dev nD) :
    BodyObligation (dat2 (F := F) V c) (defs₀ (F := F)) Variants.none () Set.univ := fun t => by
  rw [bigSep_W2, bigSep_W2]
  exact sound_body2 V c t

theorem hin2 (c : Dev nD) :
    (iprop((∃ r, prngReg c r) ∗ Pipeline.scopedRest (Ix := Unit) (Name := ℕ) (U := UR sig nD τ) (Lvl := ℕ) (Val := Elt F) spec2 c) : sProp 𝕄)
      ⊢ (dat2 V c).Φ 0 := by
  show _ ⊢ Pipeline.ΦA spec2 c
  unfold Pipeline.ΦA
  iintro ⟨Hg, Hr⟩
  iframe

theorem hout2 (c : Dev nD) :
    (dat2 V c).Φ (Fin.last cfg2.N)
      ⊢ (iprop((∃ r, prngReg c r) ∗ Pipeline.scopedRest (Ix := Unit) (Name := ℕ) (U := UR sig nD τ) (Lvl := ℕ) (Val := Elt F) spec2 c) : sProp 𝕄) := by
  rw [scopedRest2_split]
  have h := PhiS2_open V c (Fin.last cfg2.N)
  simp only [scM2, owns_whole] at h
  iintro H
  ihave ⟨%xs, -, HS, Hr, Hg⟩ := h $$ H
  iframe Hg Hr
  iexists _; iexact HS

end Cert.Kernel.Hand

end
-- ==== Proof.KReg3.lean ====
import proofs.«400709_j481036337855_3_alg».proof.Proof.KCommon
import Idealize.ShloMosaic.Lib.Pipeline.Value

noncomputable section

namespace Cert.Kernel.Hand

open Idealize.ShloMosaic Idealize.ShloMosaic.TcCoe
open Idealize.SL Idealize.SL.RA Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The first block times the transpose of the second. -/
noncomputable def out3 (c : Dev nD) (t : Fin cfg3.N) : Vec F S2048x1024 .f32 := k3_pay1 (iblk3 V c 0 t) (iblk3 V c 1 t)

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t
  Φ _ := Pipeline.ΦA spec3 c
  q w := match w with
    | ⟨0, _⟩ => fullShare.left
    | ⟨1, _⟩ => fullShare.right
    | ⟨2, _⟩ => fullShare
  owed _ := 0

theorem after3_2 (c : Dev nD) (t : Fin cfg3.N) : (dat3 V c).after 2 t = out3 V c t := rfl

theorem zero2 : (![0, 0] : Fin 2 → Nat) = fun _ => 0 := funext fun a => by fin_cases a <;> rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

/-- At every grid point the body computes that product from the two input blocks. -/
theorem sound_body3 (c : Dev nD) (t : Fin cfg3.N) :
    iprop(Pipeline.ΦA spec3 c ∗ (dat3 V c).owesAt () t.castSucc
      ∗ (∃ d, owns c (st3_0 t) fullShare ((dat3 V c).before 0 t d))
      ∗ (∃ d, owns c (st3_1 t) fullShare ((dat3 V c).before 1 t d))
      ∗ (∃ d, owns c (st3_2 t) fullShare ((dat3 V c).before 2 t d)))
    ⊢ wp frame (wpE (defs₀ (F := F)) Variants.none c none) Set.univ (bodyAt3 t) fun _ =>
      iprop(Pipeline.ΦA spec3 c ∗ (dat3 V c).owesAt () t.castSucc
        ∗ owns c (st3_0 t) fullShare (iblk3 V c 0 t)
        ∗ owns c (st3_1 t) fullShare (iblk3 V c 1 t)
        ∗ owns c (st3_2 t) fullShare (out3 V c t)) := by
  simp only [before3_0, before3_1, bodyAt3, cc3__ip_kernel_eq_skeleton]
  unfold cc3__ip_kernel_skel owns
  iintro ⟨HΦ, Ho, ⟨%d0, %f0, %hf0, H0⟩, ⟨%d1, %f1, %hf1, H1⟩, ⟨%d2, %f2, -, H2⟩⟩
  sl_exec
  sl_step
  iframe HΦ Ho
  isplitl [H0]
  · iexists f0; isplitr; · ipureintro; exact hf0
    iexact H0
  isplitl [H1]
  · iexists f1; isplitr; · ipureintro; exact hf1
    iexact H1
  iexists _; isplitr
  swap; · iexact H2
  ipureintro
  rw [View.read_writes_eq_canon _ _ _ (fun y => ⟨_, List.mem_singleton_self _,
      View.mem_set_unit_zero zero2 inb_S2048x1024_S2048x1024_0_0 y⟩),
    View.canon_unit_zero zero2, out3, ← hf0, ← hf1]
  exact congrArg₂ k3_pay1 (View.ld_unit_zero zero2 _ _) (View.ld_unit_zero zero2 _ _)

theorem body_obligation3 (c : Dev nD) :
    BodyObligation (dat3 (F := F) V c) (defs₀ (F := F)) Variants.none () Set.univ := fun t => by
  rw [bigSep_W3, bigSep_W3]
  exact sound_body3 V c t

theorem hin3 (c : Dev nD) :
    (iprop((∃ r, prngReg c r) ∗ Pipeline.scopedRest (Ix := Unit) (Name := ℕ) (U := UR sig nD τ) (Lvl := ℕ) (Val := Elt F) spec3 c) : sProp 𝕄)
      ⊢ (dat3 V c).Φ 0 := sep_comm

theorem hout3 (c : Dev nD) :
    (dat3 V c).Φ (Fin.last cfg3.N)
      ⊢ (iprop((∃ r, prngReg c r) ∗ Pipeline.scopedRest (Ix := Unit) (Name := ℕ) (U := UR sig nD τ) (Lvl := ℕ) (Val := Elt F) spec3 c) : sProp 𝕄) := sep_comm

/-- A full share is its left half together with its right half. -/
theorem halves {ℓ : Loc nD τ sig} (f : Buf (Elt F) ℓ) (P : sProp 𝕄) :
    iprop((ℓ ↦{fullShare} f) ∗ P) = iprop((ℓ ↦{fullShare.left} f) ∗ (ℓ ↦{fullShare.right} f) ∗ P) :=
  have s := pointsTo_share (ℓ := ℓ) (f := f) (I := Finset.univ) (PosShare.mem_left_op_right fullShare)
  (congrArg (iprop(· ∗ P)) (equiv_iff.1 ⟨s.1, s.2⟩)).trans (equiv_iff.1 ⟨sep_assoc, sep_assoc'⟩)

theorem bufs3 (c : Dev nD) (X Y : (b : Ref sig .tc) → Buf (Elt F) ((c : Thread nD τ).loc b))
    (G : (w : Fin cfg3.W) → Buf (Elt F) ((cfg3.win w).arr.view.loc (c : Thread nD τ)))
    (h0 : G 0 = X main_v94) (h1 : G 1 = X main_v94) (h2 : G 2 = X main_v95)
    (hY : ∀ b, b ≠ Pipeline.arrRef spec3 2 → X b = Y b) :
    (unscopedBufs c X : sProp 𝕄) = iprop((dat3 V c).arrays G
      ∗ Pipeline.unscopedRest (Ix := Unit) (Name := ℕ) (U := UR sig nD τ) (Lvl := ℕ) spec3 c Y) := by
  classical
  rw [Pipeline.unscopedBufs_split₀ (cfgs := cfgs) (p := 3) winFacts₀3.arr_unscoped]
  refine congr (congrArg _ ?_) (bigSep_congr fun b hb => by
    rw [hY b fun e => (Finset.mem_sdiff.mp hb).2 (Finset.mem_image.mpr ⟨2, Finset.mem_univ _, e.symm⟩)])
  unfold Pipeline.arrBufs Dat.arrays
  rw [show Finset.univ.image (Pipeline.arrRef (cfgs 3).spec) = {main_v94, main_v95} from by decide,
    bigSep_insert (by decide), bigSep_singleton, bigSep_W3, (arr_whole3 0).set_eq_univ, (arr_whole3 2).set_eq_univ,
    h0, h1, h2]
  exact halves _ _

theorem split3 (c : Dev nD) (W : Valuation τ sig (Elt F)) (hV : ∀ b : Ref sig .tc, V c b = W b) :
    (StableHlo.held (c : Thread nD τ) (Pipeline.ucRefs τ sig) W : sProp 𝕄)
      ⊢ iprop((dat3 V c).arrays ((dat3 V c).arrAt · 0)
          ∗ Pipeline.unscopedRest (Ix := Unit) (Name := ℕ) (U := UR sig nD τ) (Lvl := ℕ) spec3 c (V c)) := by
  rw [← Pipeline.unscopedBufs_held (Ix := Unit) (Name := ℕ) (U := UR sig nD τ) (Lvl := ℕ) c W,
    show (fun b : Ref sig .tc => W b) = V c from funext fun b => (hV b).symm,
    bufs3 V c (V c) (V c) ((dat3 V c).arrAt · 0) rfl rfl rfl fun _ _ => rfl]

theorem join3 (c : Dev nD) (W' : Valuation τ sig (Elt F))
    (hout : (dat3 V c).arrAt 2 cfg3.N = W' (Pipeline.arrRef spec3 2))
    (hrest : ∀ b : Ref sig .tc, b ≠ Pipeline.arrRef spec3 2 → W' b = V c b) :
    iprop((dat3 V c).arrays ((dat3 V c).arrAt · cfg3.N)
          ∗ Pipeline.unscopedRest (Ix := Unit) (Name := ℕ) (U := UR sig nD τ) (Lvl := ℕ) spec3 c (V c))
      ⊢ (StableHlo.held (c : Thread nD τ) (Pipeline.ucRefs τ sig) W' : sProp 𝕄) := by
  have e := (hrest main_v94 (by decide)).symm
  rw [← Pipeline.unscopedBufs_held (Ix := Unit) (Name := ℕ) (U := UR sig nD τ) (Lvl := ℕ) c W',
    bufs3 V c (fun b => W' b) (V c) ((dat3 V c).arrAt · cfg3.N) (((dat3 V c).arrAt_in 0 rfl _).trans e) (((dat3 V c).arrAt_in 1 rfl _).trans e) hout hrest]

end Cert.Kernel.Hand

end
-- ==== Proof.KRun.lean ====
import proofs.«400709_j481036337855_3_alg».proof.Proof.KReg0
import proofs.«400709_j481036337855_3_alg».proof.Proof.KReg1
import proofs.«400709_j481036337855_3_alg».proof.Proof.KReg2
import proofs.«400709_j481036337855_3_alg».proof.Proof.KReg3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)
abbrev W1 : Dev nD → Valuation τ sig (Elt F) := fun c => StableHlo.after hostOps0 (W0 m c)
abbrev E1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev W3 : Dev nD → Valuation τ sig (Elt F) := fun c => StableHlo.after hostOps1 (W2 m c)
abbrev E3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev E7 : (c : Dev nD) → (b : Ref sig .tc) → Buf (Elt F) ((c : Thread nD τ).loc b) := fun c b => W7 m c b
def W8 (c : Dev nD) : Valuation τ sig (Elt F) :=
  Pipeline.withArrays spec2 c (W7 m c) fun w => (dat2 (E7 m) c).arrAt w cfg2.N
theorem W8_arr (c : Dev nD) (w : Fin cfg2.W) :
    W8 m c (Proc.devRef .tc (Pipeline.arrRef spec2 w)) = (dat2 (E7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev W9 : Dev nD → Valuation τ sig (Elt F) := fun c => StableHlo.after hostOps3 (W8 m c)
abbrev E9 : (c : Dev nD) → (b : Ref sig .tc) → Buf (Elt F) ((c : Thread nD τ).loc b) := fun c b => W9 m c b
def W10 (c : Dev nD) : Valuation τ sig (Elt F) :=
  Function.update (W9 m c) (Proc.devRef .tc main_v95) ((dat3 (E9 m) c).arrAt 2 cfg3.N)
theorem W10_out (c : Dev nD) : W10 m c (Proc.devRef .tc main_v95) = (dat3 (E9 m) c).arrAt 2 cfg3.N := by
  unfold W10; exact Function.update_self _ _ _
theorem W10_of_ne (c : Dev nD) (b : Ref sig .tc) (hb : b ≠ main_v95) :
    W10 m c (Proc.devRef .tc b) = W9 m c (Proc.devRef .tc b) := by
  unfold W10; exact Function.update_of_ne (StableHlo.devRef_ne_of_ne hb) _ _

abbrev args : List (Ref sig .tc) :=
  [main_arg0, main_arg1, main_arg2, main_arg3, main_arg4, main_arg5, main_arg6, main_arg7, main_arg8, main_arg9,
    main_arg10, main_arg11, main_arg12]

/-- No item of the main function writes an argument. -/
theorem args_unwritten : ∀ r ∈ args, (¬ (Proc.devRef .tc r : DevRef τ sig).isScoped) ∧ r ∉ hostOps3_W ∧ r ∉ hostOps2_2_W
    ∧ r ∉ hostOps2_1_W ∧ r ∉ hostOps2_W ∧ r ∉ hostOps1_W ∧ r ∉ hostOps0_W ∧ r ≠ main_v95
    ∧ (∀ w, Pipeline.arrRef spec2 w ≠ r) ∧ (∀ w, Pipeline.arrRef spec1 w ≠ r)
    ∧ (r ≠ main_arg1 → ∀ w, Pipeline.arrRef spec0 w ≠ r) := by decide

/-- So an argument's last value is its first: the items walked back one by one. -/
theorem W10_arg (c : Dev nD) (r : Ref sig .tc) (hr : r ∈ args) :
    W10 m c (Proc.devRef .tc r) = m ((c : Thread nD τ).loc r) := by
  obtain ⟨-, h3, h22, h21, h2, h1, h0, hv, hs2, hs1, hs0⟩ := args_unwritten r hr
  have e0 : W2 m c (Proc.devRef .tc r) = W1 m c (Proc.devRef .tc r) := by
    by_cases e : r = main_arg1
    · subst e; exact (W2_arr m c 3).trans (((dat0 (E1 m) c).arrAt_in 3 rfl _).trans (A_eq0 (E1 m) c 3))
    · exact W2_of_ne m c r (hs0 e)
  exact calc W10 m c (Proc.devRef .tc r)
    _ = W9 m c (Proc.devRef .tc r) := W10_of_ne m c r hv
    _ = W8 m c (Proc.devRef .tc r) := StableHlo.after_of_writes_sub hostOps3 _ hostOps3_writes h3
    _ = W7 m c (Proc.devRef .tc r) := W8_of_ne m c r hs2
    _ = W6 m c (Proc.devRef .tc r) := StableHlo.after_of_writes_sub hostOps2_2 _ hostOps2_2_writes h22
    _ = W5 m c (Proc.devRef .tc r) := StableHlo.after_of_writes_sub hostOps2_1 _ hostOps2_1_writes h21
    _ = W4 m c (Proc.devRef .tc r) := StableHlo.after_of_writes_sub hostOps2 _ hostOps2_writes h2
    _ = W3 m c (Proc.devRef .tc r) := W4_of_ne m c r hs1
    _ = W2 m c (Proc.devRef .tc r) := StableHlo.after_of_writes_sub hostOps1 _ hostOps1_writes h1
    _ = W1 m c (Proc.devRef .tc r) := e0
    _ = W0 m c (Proc.devRef .tc r) := StableHlo.after_of_writes_sub hostOps0 _ hostOps0_writes h0
    _ = m ((c : Thread nD τ).loc r) := rfl

def pdats : (p : Fin 4) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E7 m) c
  | ⟨3, _⟩ => fun c => dat3 (E9 m) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- A launch as a segment between two valuations, given how its arrays split off the rest and join it again. -/
def regOf (p : Fin 4) (win : Pipeline.WinFacts₀ (pcfgs (F := F) p).spec)
    (bpos : ∀ w : Fin (Pipeline.pin (pcfgs (F := F)) adm p).W, 0 < ((Pipeline.pin (pcfgs (F := F)) adm p).spec w).block.numel)
    (swhole : ∀ (w : Fin (Pipeline.pin (pcfgs (F := F)) adm p).W) (s : Fin ((Pipeline.pin (pcfgs (F := F)) adm p).spec w).nbuf),
      (((Pipeline.pin (pcfgs (F := F)) adm p).spec w).stage s).IsWhole)
    (Vin Vout : Dev nD → Valuation τ sig (Elt F)) (Z : Dev nD → sProp 𝕄)
    (howed : ∀ (c : Dev nD) t, (pdats m p c).owed t = 0) (hrec : ∀ c : Dev nD, (pdats m p c).recorded 0 = Set.univ)
    (hbody : ∀ c : Dev nD, BodyObligation (pdats m p c) (defs₀ (F := F)) Variants.none () Set.univ)
    (hin : ∀ c : Dev nD, (iprop((∃ r, prngReg c r) ∗ Pipeline.scopedRest (Ix := Unit) (Name := ℕ) (U := UR sig nD τ) (Lvl := ℕ) (Val := Elt F)
      (Pipeline.pin (pcfgs (F := F)) adm p).spec c) : sProp 𝕄) ⊢ (pdats m p c).Φ 0)
    (hout : ∀ c : Dev nD, (pdats m p c).Φ (Fin.last _) ⊢ (iprop((∃ r, prngReg c r) ∗ Pipeline.scopedRest (Ix := Unit) (Name := ℕ)
      (U := UR sig nD τ) (Lvl := ℕ) (Val := Elt F) (Pipeline.pin (pcfgs (F := F)) adm p).spec c) : sProp 𝕄))
    (hsplit : ∀ c : Dev nD, StableHlo.held (c : Thread nD τ) (Pipeline.ucRefs τ sig) (Vin c)
      ⊢ (iprop((pdats m p c).arrays ((pdats m p c).arrAt · 0) ∗ Z c) : sProp 𝕄))
    (hjoin : ∀ c : Dev nD, (iprop((pdats m p c).arrays ((pdats m p c).arrAt · (Pipeline.pin (pcfgs (F := F)) adm p).N) ∗ Z c) : sProp 𝕄)
      ⊢ StableHlo.held (c : Thread nD τ) (Pipeline.ucRefs τ sig) (Vout c)) :
    Pipeline.RegionSeg (pcfgs (F := F)) adm (pdats m) () defs₀ 𝒱₀ L lv p where
  win := win
  block_pos := bpos
  stage_whole := swhole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z := Z
  hentry c := by
    unfold Pipeline.Dat.owesAt
    rw [Pipeline.ownSems0_none, howed c]
    iintro ⟨⟨Hub, Hp, HO⟩, -, -⟩
    ihave H := (hsplit c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun _ _ => Or.inl ((hrec c).symm ▸ Set.mem_univ _)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    unfold Pipeline.Dat.owesAt
    rw [howed c]
    iintro ⟨Ha, HO, HY, Hrest⟩
    imodintro
    isplitl [Ha Hrest]
    · iapply (hjoin c); isplitl [Ha] <;> iassumption
    isplitl [HY]; · iexact HY
    unfold Pipeline.owesWithin
    icases HO with ⟨%W, -, HO⟩; iexists W; iexact HO

set_option backward.isDefEq.respectTransparency.types false in
/-- The split and the join of a launch whose arrays are distinct. -/
def regOfLaunch (p : Fin 4) (lf : Pipeline.LaunchFacts (nD := nD) (τ := τ) cfgs p) (Vin Vout : Dev nD → Valuation τ sig (Elt F))
    (hA : ∀ (c : Dev nD) w, (pdats m p c).A w = Vin c (Pipeline.arrRef (Pipeline.pin (pcfgs (F := F)) adm p).spec w))
    (hq : ∀ (c : Dev nD) w, (pdats m p c).q w = fullShare) (howed : ∀ (c : Dev nD) t, (pdats m p c).owed t = 0) (hrec : ∀ c : Dev nD, (pdats m p c).recorded 0 = Set.univ)
    (hbody : ∀ c : Dev nD, BodyObligation (pdats m p c) (defs₀ (F := F)) Variants.none () Set.univ)
    (hin : ∀ c : Dev nD, (iprop((∃ r, prngReg c r) ∗ Pipeline.scopedRest (Ix := Unit) (Name := ℕ) (U := UR sig nD τ) (Lvl := ℕ) (Val := Elt F)
      (Pipeline.pin (pcfgs (F := F)) adm p).spec c) : sProp 𝕄) ⊢ (pdats m p c).Φ 0)
    (hout : ∀ c : Dev nD, (pdats m p c).Φ (Fin.last _) ⊢ (iprop((∃ r, prngReg c r) ∗ Pipeline.scopedRest (Ix := Unit) (Name := ℕ)
      (U := UR sig nD τ) (Lvl := ℕ) (Val := Elt F) (Pipeline.pin (pcfgs (F := F)) adm p).spec c) : sProp 𝕄))
    (harr : ∀ (c : Dev nD) w, (pdats m p c).arrAt w (Pipeline.pin (pcfgs (F := F)) adm p).N
      = Vout c (Pipeline.arrRef (Pipeline.pin (pcfgs (F := F)) adm p).spec w))
    (hne : ∀ (c : Dev nD) (b : Ref sig .tc), (∀ w, Pipeline.arrRef (Pipeline.pin (pcfgs (F := F)) adm p).spec w ≠ b) → Vout c b = Vin c b) :
    Pipeline.RegionSeg (pcfgs (F := F)) adm (pdats m) () defs₀ 𝒱₀ L lv p :=
  regOf m p lf.win.to₀ lf.block_pos lf.stage_whole Vin Vout
    (fun c => Pipeline.unscopedRest (Ix := Unit) (Name := ℕ) (U := UR sig nD τ) (Lvl := ℕ) (Pipeline.pin (pcfgs (F := F)) adm p).spec c
      fun b => Vin c b)
    howed hrec hbody hin hout
    (fun c => by
      have h := Pipeline.arrays_of_unscopedBufs (p := p) (pcfgs (F := F)) adm (pdats m) lf.win lf.arr_whole c
        ((pdats m p c).share_full (hq c)) (fun b => Vin c b) (hA c)
      rwa [Pipeline.unscopedBufs_held] at h)
    (fun c => by
      have h := Pipeline.unscopedBufs_of_arrays (p := p) (pcfgs (F := F)) adm (Ix := Unit) (Name := ℕ) (U := UR sig nD τ) (Lvl := ℕ)
        lf.win lf.arr_whole c (pdats m) ((pdats m p c).share_full (hq c)) (fun b => Vin c b) (fun b => Vout c b)
        ((pdats m p c).arrAt · (Pipeline.pin (pcfgs (F := F)) adm p).N) (harr c)
        (fun b hb => hne c b fun w e => hb (Finset.mem_image.mpr ⟨w, Finset.mem_univ _, e⟩))
      rwa [Pipeline.unscopedBufs_held] at h)

set_option backward.isDefEq.respectTransparency.types false in
/-- The main function's ten items in order. -/
abbrev segs : List (Pipeline.Seg (pcfgs (F := F)) adm (pdats m) () defs₀ 𝒱₀ L lv) :=
  [ .host (hseg hostOps0 hostOps0_sub hostOps0_fresh (W0 m)),
    .region (regOfLaunch m 0 launch0 (W1 m) (W2 m) (fun _ _ => rfl) (fun _ _ => rfl) (fun _ _ => rfl) (fun _ => rfl)
      (body_obligation0 (E1 m)) (hin0 (E1 m)) (hout0 (E1 m)) (fun c w => (W2_arr m c w).symm) (W2_of_ne m)),
    .host (hseg hostOps1 hostOps1_sub hostOps1_fresh (W2 m)),
    .region (regOfLaunch m 1 launch1 (W3 m) (W4 m) (fun _ _ => rfl) (fun _ _ => rfl) (fun _ _ => rfl) (fun _ => rfl)
      (body_obligation1 (E3 m)) (hin1 (E3 m)) (hout1 (E3 m)) (fun c w => (W4_arr m c w).symm) (W4_of_ne m)),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .region (regOfLaunch m 2 launch2 (W7 m) (W8 m) (fun _ _ => rfl) (fun _ _ => rfl) (fun _ _ => rfl) (fun _ => rfl)
      (body_obligation2 (E7 m)) (hin2 (E7 m)) (hout2 (E7 m)) (fun c w => (W8_arr m c w).symm) (W8_of_ne m)),
    .host (hseg hostOps3 hostOps3_sub hostOps3_fresh (W8 m)),
    .region (regOf m 3 winFacts₀3 block_pos3 stage_whole3 (W9 m) (W10 m)
      (fun c => Pipeline.unscopedRest (Ix := Unit) (Name := ℕ) (U := UR sig nD τ) (Lvl := ℕ) spec3 c (E9 m c))
      (fun _ _ => rfl) (fun _ => rfl) (body_obligation3 (E9 m)) (hin3 (E9 m)) (hout3 (E9 m))
      (fun c => split3 (E9 m) c (W9 m c) (fun _ => rfl))
      (fun c => join3 (E9 m) c (W10 m c) (W10_out m c).symm (fun b hb => W10_of_ne m c b hb))) ]

theorem main_run (c : Dev nD) : main (F := F) c = Pipeline.Seg.run (segs m) := (main_chain c).trans (by chain_rfl)

set_option backward.isDefEq.respectTransparency.types false in
/-- Every weakly fair execution terminates with every buffer at the last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl,
      fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-- Every argument is as at the start. -/
abbrev Kept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)

theorem kept_of_all (c : Dev nD) (mem : (ℓ : Loc nD τ sig) → Buf (Elt F) ℓ)
    (h : ∀ b ∈ Pipeline.ucRefs τ sig, mem (((c : Thread nD τ)).1, b) = W10 m c b) : Kept m mem c := by
  have k : ∀ r ∈ args, mem ((c.tc : Thread nD τ).loc r) = m ((c.tc : Thread nD τ).loc r) := fun r hr =>
    (h _ (mem_uc r (args_unwritten r hr).1)).trans (W10_arg m c r hr)
  exact ⟨k _ (by decide), k _ (by decide), k _ (by decide), k _ (by decide), k _ (by decide), k _ (by decide), k _ (by decide),
    k _ (by decide), k _ (by decide), k _ (by decide), k _ (by decide), k _ (by decide), k _ (by decide)⟩

/-- The frame. -/
theorem frame_run : θ_run defs (onTc (τ := τ) (main (F := F))) ⟨m, fun _ => 0, ρ⟩ (fun r => ∀ c : Dev nD, Kept m r.2.mem c) :=
  (θ_run defs _ _).mono (fun r h c => kept_of_all m c _ (h c)) (run_all m ρ)

/-- The run with both results named. -/
theorem value_run : θ_run defs (onTc (τ := τ) (main (F := F))) ⟨m, fun _ => 0, ρ⟩ (fun r => ∀ c : Dev nD,
      r.2.mem ((c.tc : Thread nD τ).loc main_v93) = W10 m c (Proc.devRef .tc main_v93)
      ∧ r.2.mem ((c.tc : Thread nD τ).loc main_v95) = W10 m c (Proc.devRef .tc main_v95) ∧ Kept m r.2.mem c) :=
  (θ_run defs _ _).mono (fun r h c =>
    ⟨h c _ (mem_uc main_v93 (by decide)), h c _ (mem_uc main_v95 (by decide)), kept_of_all m c _ (h c)⟩) (run_all m ρ)

end Cert.Kernel.Hand

end
-- ==== Proof.Common.lean ====
import proofs.«400709_j481036337855_3_alg».proof.Proof.Gen.KernelIdeal.Launch
import proofs.«400709_j481036337855_3_alg».proof.Proof.Gen.KernelIdeal.Skeleton
import proofs.«400709_j481036337855_3_alg».proof.Proof.Gen.KernelIdeal.Points
import proofs.«400709_j481036337855_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.SL Idealize.SL.BI Idealize.SL.BI.BIBase Cert.KernelIdeal

variable {F : FTy → Type} [FloatOps F]

abbrev 𝒱₀ : Variants := Variants.none
abbrev L : GSem nD τ sig → Finset Unit := fun _ => ∅
abbrev lv : GSem nD τ sig → Unit → ℕ := fun _ _ => 0

abbrev R (c : Dev nD) : sProp (MT nD τ sig Unit (Elt F) ℕ (UR sig nD τ) ℕ) :=
  iprop((∃ r, prngReg c r) ∗ ∃ W, owes (c : Thread nD τ) (0 : CellTallies nD τ sig Unit) W)

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

end Cert.KernelIdeal.Hand

end
-- ==== Proof.Reg0.lean ====
import proofs.«400709_j481036337855_3_alg».proof.Proof.Common
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev scM0 : Memref sig .tc .vmem S1024x1 .f32 := Memref.whole cc0_scratch0
abbrev scL0 : Memref sig .tc .vmem S1024x1 .f32 := Memref.whole cc0_scratch1
abbrev scA0 : Memref sig .tc .vmem S1024x128 .f32 := Memref.whole cc0_scratch2

abbrev St0 (F : FTy → Type) : Type := Vec F S1024x1 .f32 × Vec F S1024x1 .f32 × Vec F S1024x128 .f32

-- One step of the online softmax: new maximum, rescaled denominator plus row sums, rescaled numerator plus weights times features.
def step0 (x0 : Vec F S1024x1 .f32) (x1 : Vec F S1x1024 .f32) (x2 : Vec F S1024x128 .f32)
    (x3 : Vec F S1024x1024 .f32) (s : St0 F) : St0 F :=
  (k0_pay3 (k0_pay11 x0 x1 x3 s.1),
   k0_pay1 (k0_pay13 x0 x1 x3 s.1) (k0_pay14 x0 x1 x3 s.1 s.2.1),
   k0_pay2 (k0_pay8 x2) (k0_pay12 x0 x1 x3 s.1) (k0_pay13 x0 x1 x3 s.1) s.2.2)

def init0 : St0 F := (k0_pay5 (F := F), k0_pay6 (F := F), k0_pay7 (F := F))

-- The carried state after position n: one step from the reset state at the first column block of a row block, else one step from the state before.
def st0 (c : Dev nD) (n : ℕ) (hn : n < cfg0.N) : St0 F :=
  step0 (iblk0 V c 0 ⟨n, hn⟩) (iblk0 V c 1 ⟨n, hn⟩) (iblk0 V c 2 ⟨n, hn⟩) (iblk0 V c 3 ⟨n, hn⟩)
    (if h : n % 8 = 0 then init0 (F := F) else st0 c (n - 1) (Nat.lt_of_le_of_lt (Nat.sub_le _ _) hn))
termination_by n
decreasing_by omega

theorem st0_first (c : Dev nD) (t : Fin cfg0.N) (h : t.val % 8 = 0) :
    st0 V c t.val t.isLt
      = step0 (iblk0 V c 0 t) (iblk0 V c 1 t) (iblk0 V c 2 t) (iblk0 V c 3 t) (init0 (F := F)) := by
  rw [st0, dif_pos h]

theorem st0_next (c : Dev nD) (t : Fin cfg0.N) (h : t.val % 8 ≠ 0) :
    st0 V c t.val t.isLt
      = step0 (iblk0 V c 0 t) (iblk0 V c 1 t) (iblk0 V c 2 t) (iblk0 V c 3 t)
          (st0 V c (t.val - 1) (Nat.lt_of_le_of_lt (Nat.sub_le _ _) t.isLt)) := by
  rw [st0, dif_neg h]

def out0_4 (c : Dev nD) (t : Fin cfg0.N) : Vec F S1024x128 .f32 :=
  k0_pay4 (st0 V c t.val t.isLt).2.2 (st0 V c t.val t.isLt).2.1

def out0_5 (c : Dev nD) (t : Fin cfg0.N) : Vec F S1024x1024 .bf16 := k0_pay9 (iblk0 V c 3 t)

abbrev rest0 (c : Dev nD) : sProp 𝕄 :=
  Pipeline.scopedRestBut (Ix := Unit) (Name := ℕ) (U := UR sig nD τ) (Lvl := ℕ) (Val := Elt F) spec0 c
    [cc0_scratch0, cc0_scratch1, cc0_scratch2]

abbrev inv0 (c : Dev nD) (s : St0 F) : sProp 𝕄 :=
  iprop(owns c scM0 fullShare s.1 ∗ owns c scL0 fullShare s.2.1 ∗ owns c scA0 fullShare s.2.2
    ∗ rest0 (F := F) c ∗ ∃ r, prngReg c r)

-- Before position n the invariant holds at some state, which past the first position is the state the position before left.
abbrev PhiS0 (c : Dev nD) (n : ℕ) (h : n ≤ cfg0.N) : sProp 𝕄 :=
  iprop(∃ s, ⌜∀ hn : n ≠ 0, s = st0 V c (n - 1) (by omega)⌝ ∗ inv0 c s)

theorem scopedRest0_split (c : Dev nD) :
    (Pipeline.scopedRest (Ix := Unit) (Name := ℕ) (U := UR sig nD τ) (Lvl := ℕ) (Val := Elt F) spec0 c : sProp 𝕄)
      = iprop(((∃ d, owns c scM0 fullShare d) ∗ (∃ d, owns c scL0 fullShare d)
          ∗ (∃ d, owns c scA0 fullShare d)) ∗ rest0 (F := F) c) := by
  rw [Pipeline.scopedRest_split_of_list spec0 c [cc0_scratch0, cc0_scratch1, cc0_scratch2] (by decide) (by decide)]
  simp only [scM0, scL0, scA0, owns_whole]; rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 V c t
    | ⟨5, _⟩ => out0_5 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_4 (c : Dev nD) (t : Fin cfg0.N) : (dat0 V c).after 4 t = out0_4 V c t := by dsimp only [dat0]
theorem after0_5 (c : Dev nD) (t : Fin cfg0.N) : (dat0 V c).after 5 t = out0_5 V c t := by dsimp only [dat0]

abbrev cond0_a (i : grid0.Coords) : Prop :=
  (Scalar.cmpi .ne (Scalar.extui (Scalar.cmpi .eq (BitVec.ofNat 32 (i 1).val) 0#32)) 0#32) = 1#1
abbrev cond0_b (i : grid0.Coords) : Prop := k0_cond2 i = 1#1

theorem hcond0_a : ∀ t : Fin cfg0.N, cond0_a (grid0.coords t) ↔ t.val % 8 = 0 := by decide +kernel

theorem liveAt0 : ∀ (t : Fin cfg0.N) (w : Fin cfg0.W), w ≠ 4 → cfg0.idle w (grid0.coords t) = false := by decide +kernel
theorem idleAt0_4 : ∀ t : Fin cfg0.N, ¬ cond0_b (grid0.coords t) →
    cfg0.idle 4 (grid0.coords t) = true ∧ (cfg0.win 4).flush t = false := by decide +kernel
theorem liveAt0_4 : ∀ t : Fin cfg0.N, cond0_b (grid0.coords t) → cfg0.idle 4 (grid0.coords t) = false := by decide +kernel

theorem excl0 : ∀ t : Fin cfg0.N, cond0_a (grid0.coords t) → ¬ cond0_b (grid0.coords t) := by decide +kernel

theorem hz2 : (![0, 0] : Fin 2 → ℕ) = fun _ => 0 := by funext a; fin_cases a <;> rfl

theorem read_back_cons {S : Shape} {e : EltTy} (m : Memref sig .tc .vmem S e) (f : m.view.ty.Contents (Elt F))
    {off : Fin S.rank → ℕ} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

set_option maxHeartbeats 4000000 in
-- One triple for every control case: the two conditions say whether the step starts from the reset state and whether the quotient is taken.
theorem sound_kernel0 (c : Dev nD) (E : Set ℕ) (i : grid0.Coords)
    (arg2 : Memref sig .tc .vmem S1024x1 .f32) (harg2 : arg2.IsWhole) (arg3 : Memref sig .tc .vmem S1x1024 .f32) (harg3 : arg3.IsWhole)
    (arg4 : Memref sig .tc .vmem S1024x128 .f32) (harg4 : arg4.IsWhole) (arg5 : Memref sig .tc .vmem S1024x1024 .f32) (harg5 : arg5.IsWhole)
    (arg6 : Memref sig .tc .vmem S1024x128 .f32) (harg6 : arg6.IsWhole) (arg7 : Memref sig .tc .vmem S1024x1024 .bf16) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (x0 : Vec F S1024x1 .f32) (x1 : Vec F S1x1024 .f32) (x2 : Vec F S1024x128 .f32) (x3 : Vec F S1024x1024 .f32)
    (y4 : Vec F S1024x128 .f32) (y5 : Vec F S1024x1024 .bf16) (s S : St0 F)
    (hS : S = step0 x0 x1 x2 x3 (if cond0_a i then init0 (F := F) else s)) (hab : cond0_a i → ¬ cond0_b i)
    (K : PUnit → sProp 𝕄) :
    iprop(owns c arg2 fullShare x0 ∗ owns c arg3 fullShare x1 ∗ owns c arg4 fullShare x2 ∗ owns c arg5 fullShare x3
        ∗ owns c arg6 fullShare y4 ∗ owns c arg7 fullShare y5
        ∗ owns c arg8 fullShare s.1 ∗ owns c arg9 fullShare s.2.1 ∗ owns c arg10 fullShare s.2.2
        ∗ (iprop(owns c arg2 fullShare x0 ∗ owns c arg3 fullShare x1 ∗ owns c arg4 fullShare x2 ∗ owns c arg5 fullShare x3
            ∗ owns c arg6 fullShare (if cond0_b i then k0_pay4 S.2.2 S.2.1 else y4) ∗ owns c arg7 fullShare (k0_pay9 x3)
            ∗ owns c arg8 fullShare S.1 ∗ owns c arg9 fullShare S.2.1 ∗ owns c arg10 fullShare S.2.2) -∗ K ⟨⟩))
      ⊢ wp frame (wpE (defs₀ (F := F)) Variants.none c none) E
          (cc0__gat_kernel i arg2 harg2 arg3 harg3 arg4 harg4 arg5 harg5 arg6 harg6 arg7 harg7 arg8 harg8 arg9 harg9 arg10 harg10) K := by
  subst hS
  simp only [cc0__gat_kernel_eq_skeleton]; unfold cc0__gat_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%f8, %hf8, H8⟩, ⟨%f9, %hf9, H9⟩, ⟨%f10, %hf10, H10⟩, Hk⟩
  subst hf0; subst hf1; subst hf2; subst hf3; subst hf4
  obtain rfl := harg8.eq_unread hf8; obtain rfl := harg9.eq_unread hf9; obtain rfl := harg10.eq_unread hf10
  by_cases hc0 : cond0_a i <;> by_cases hc1 : cond0_b i <;> first | exact absurd hc1 (hab hc0) | (
    sl_exec (disch := first | exact hc0 | exact hc1)
    sl_step
    iapply Hk
    first | rw [if_pos hc0] | rw [if_neg hc0]
    first | rw [if_pos hc1] | rw [if_neg hc1]
    isplitl [H0]; swap; isplitl [H1]; swap; isplitl [H2]; swap; isplitl [H3]; swap
    isplitl [H4]; swap; isplitl [H5]; swap; isplitl [H8]; swap; isplitl [H9]; swap
    all_goals
      iexists _; isplitr; swap; · iassumption
      ipureintro
      first
      | ( refine (read_back_cons _ _ hz2 _ _ _).trans ?_
          sl_unfold_words
          simp only [step0, init0, View.readAt_eq_ld, Memref.IsWhole.read_unread,
            View.ld_unit_zero (S := S1024x1) hz2, View.ld_unit_zero (S := S1x1024) hz2,
            View.ld_unit_zero (S := S1024x128) hz2, View.ld_unit_zero (S := S1024x1024) hz2,
            View.readCov_cons_toLoadRect]
          try rfl )
      | rfl)

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

theorem st0_eq (c : Dev nD) (t : Fin cfg0.N) (s : St0 F) (hs : ∀ hn : t.val ≠ 0, s = st0 V c (t.val - 1) (by omega)) :
    st0 V c t.val t.isLt = step0 (iblk0 V c 0 t) (iblk0 V c 1 t) (iblk0 V c 2 t) (iblk0 V c 3 t)
      (if cond0_a (grid0.coords t) then init0 (F := F) else s) := by
  by_cases h : t.val % 8 = 0
  · rw [st0_first V c t h, if_pos ((hcond0_a t).mpr h)]
  · rw [st0_next V c t h, if_neg (mt (hcond0_a t).mp h), hs fun e => h (by rw [e])]

theorem leaves0_4 (c : Dev nD) (t : Fin cfg0.N) (d) :
    owns c (st0_4 t) fullShare (if cond0_b (grid0.coords t) then k0_pay4 (st0 V c t.val t.isLt).2.2 (st0 V c t.val t.isLt).2.1
      else (dat0 V c).before 4 t d) ⊢ (dat0 V c).leavesExact 4 t := by
  by_cases h : cond0_b (grid0.coords t)
  · rw [if_pos h]; unfold Dat.leavesExact; rw [liveAt0_4 t h, after0_4]; exact .rfl
  · rw [if_neg h, Dat.leavesExact_idle _ 4 t (idleAt0_4 t h).1 (idleAt0_4 t h).2]
    iintro H; iexists d; iexact H

theorem body_obligation0 (c : Dev nD) :
    BodyObligation (dat0 (F := F) V c) (defs₀ (F := F)) Variants.none () Set.univ := fun t => by
  rw [bigSep_W0, bigSep_W0]
  show _ ⊢ wp frame _ Set.univ (bodyAt0 t) _
  unfold bodyAt0
  simp only [before0_0, before0_1, before0_2, before0_3,
    liveAt0 t 0 (by decide), liveAt0 t 1 (by decide), liveAt0 t 2 (by decide), liveAt0 t 3 (by decide), liveAt0 t 5 (by decide),
    show (dat0 V c).after 0 t = iblk0 V c 0 t from rfl, show (dat0 V c).after 1 t = iblk0 V c 1 t from rfl,
    show (dat0 V c).after 2 t = iblk0 V c 2 t from rfl, show (dat0 V c).after 3 t = iblk0 V c 3 t from rfl, after0_5]
  rw [show (dat0 V c).owesAt () t.succ = (dat0 V c).owesAt () t.castSucc from rfl,
    show (dat0 V c).Φ t.succ = PhiS0 V c (t.val + 1) t.isLt from rfl,
    show (dat0 V c).Φ t.castSucc = PhiS0 V c t.val (Nat.le_of_lt t.isLt) from rfl]
  unfold out0_5 PhiS0 inv0
  iintro ⟨HP, Ho, ⟨%d0, H0⟩, ⟨%d1, H1⟩, ⟨%d2, H2⟩, ⟨%d3, H3⟩, ⟨%d4, H4⟩, ⟨%d5, H5⟩⟩
  icases HP with ⟨%s, %hs, HM, HL, HA, Hr, Hg⟩
  iapply (sound_kernel0 c Set.univ (grid0.coords t) _ _ _ _ _ _ _ _ _ _ _ _ _ _ _ _ _ _ (iblk0 V c 0 t) (iblk0 V c 1 t) (iblk0 V c 2 t) (iblk0 V c 3 t)
    ((dat0 V c).before 4 t d4) ((dat0 V c).before 5 t d5) s _ (st0_eq V c t s hs) (excl0 t) _)
  iframe
  iintro ⟨H0, H1, H2, H3, H4, H5, HM, HL, HA⟩
  isplitl [HM HL HA Hr Hg]
  · iexists st0 V c t.val t.isLt; isplitr; · ipureintro; exact fun _ => rfl
    iframe
  iframe
  iapply (leaves0_4 V c t d4)
  iexact H4

theorem hin0 (c : Dev nD) :
    (iprop((∃ r, prngReg c r) ∗ Pipeline.scopedRest (Ix := Unit) (Name := ℕ) (U := UR sig nD τ) (Lvl := ℕ) (Val := Elt F) spec0 c) : sProp 𝕄)
      ⊢ (dat0 V c).Φ 0 := by
  rw [scopedRest0_split]
  show _ ⊢ PhiS0 V c 0 (Nat.zero_le _)
  iintro ⟨Hg, ⟨⟨%m, HM⟩, ⟨%l, HL⟩, ⟨%a, HA⟩⟩, Hr⟩
  iexists (m, l, a); isplitr; · ipureintro; exact fun hn => absurd rfl hn
  unfold inv0; iframe

theorem hout0 (c : Dev nD) :
    (dat0 V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := by
  rw [scopedRest0_split]
  show PhiS0 V c cfg0.N le_rfl ⊢ _
  iintro ⟨%s, -, HM, HL, HA, Hr, Hg⟩
  iframe
  isplitl [HM]; · iexists _; iexact HM
  isplitl [HL]; · iexists _; iexact HL
  iexists _; iexact HA

end Cert.KernelIdeal.Hand

end
-- ==== Proof.Reg1.lean ====
import proofs.«400709_j481036337855_3_alg».proof.Proof.Common
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev scM1 : Memref sig .tc .vmem S2048x512 .f32 := Memref.whole cc1_scratch0

-- The running sum of block products over the column blocks of a row block, restarted at each first column block.
noncomputable def acc1 (c : Dev nD) : (n : ℕ) → n < cfg1.N → Vec F S2048x512 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h : t.val % 8 = 0) :
    acc1 V c t.val t.isLt = k1_pay2 (iblk1 V c 0 t) (iblk1 V c 1 t) (k1_pay1 (F := F)) := by
  obtain ⟨n, hn⟩ := t
  cases n with
  | zero => rfl
  | succ n => exact (if_pos h).trans rfl

theorem acc1_next (c : Dev nD) (t : Fin cfg1.N) (h : t.val % 8 ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

noncomputable def out1 (c : Dev nD) (t : Fin cfg1.N) : Vec F S2048x512 .f32 := k1_pay3 (acc1 V c t.val t.isLt)

abbrev PhiS1_rest (c : Dev nD) : sProp 𝕄 :=
  iprop(Pipeline.scopedRestBut (Ix := Unit) (Name := ℕ) (U := UR sig nD τ) (Lvl := ℕ) (Val := Elt F) spec1 c [cc1_scratch0]
    ∗ ∃ r, prngReg c r)

noncomputable def PhiS1 (c : Dev nD) : (n : ℕ) → n ≤ cfg1.N → sProp 𝕄
  | 0, _ => Pipeline.ΦA spec1 c
  | n + 1, hn => iprop(owns c.tc scM1 fullShare (acc1 V c n (Nat.lt_of_succ_le hn)) ∗ PhiS1_rest c)

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_2 (c : Dev nD) (t : Fin cfg1.N) : (dat1 V c).after 2 t = out1 V c t := rfl

theorem before1_in (c : Dev nD) (t : Fin cfg1.N) :
    (∀ d, (dat1 V c).before 0 t d = iblk1 V c 0 t) ∧ ∀ d, (dat1 V c).before 1 t d = iblk1 V c 1 t := by
  constructor <;> intro d <;>
  exact ((dat1 V c).before_in_eq_fetched _ rfl (fun _ => rfl) (fun _ _ _ => rfl)
    (fun t => by dsimp only [dat1]; unfold Dat.blockOf iblk1; try rfl) t d).trans
    (by unfold Dat.fetched Dat.blockOf iblk1; rw [A_eq1]; try rfl)

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_in : ∀ t : Fin cfg1.N, cfg1.idle 0 (grid1.coords t) = false ∧ cfg1.idle 1 (grid1.coords t) = false := by
  decide +kernel
theorem idleAt1_2 : ∀ t : Fin cfg1.N, ¬cond1_1 (grid1.coords t) →
    cfg1.idle 2 (grid1.coords t) = true ∧ (cfg1.win 2).flush t = false := by decide +kernel
theorem liveAt1_2 : ∀ t : Fin cfg1.N, cond1_1 (grid1.coords t) → cfg1.idle 2 (grid1.coords t) = false := by decide +kernel

theorem hz1 : (![0, 0] : Fin S2048x512.rank → ℕ) = fun _ => 0 := by
  funext a; match a with | ⟨0, _⟩ => rfl | ⟨1, _⟩ => rfl

abbrev rS1 : Rect S2048x512 := Rect.unit ![0, 0] S2048x512.size inb_S2048x512_S2048x512_0_0

-- After a list of writes whose last one covers every index, every read returns that last write's value.
theorem hz1_read {κ : Kind} {sp : Space} {e : EltTy} (v : View sig κ sp S2048x512 e)
    (w : S2048x512.Idx → Elt F e) (L : List (View.Piece (Elt F) S2048x512 e)) :
    (∀ f, v.read (Elt F) (v.writes (Elt F) f (⟨rS1, w⟩ :: L)) = w) ∧ v.readCov (⟨rS1, w⟩ :: L) rS1.toLoadRect = w := by
  have h (y) : ∃ p ∈ (⟨rS1, w⟩ :: L : List (View.Piece (Elt F) S2048x512 e)), y ∈ p.1.set :=
    ⟨_, List.mem_cons.mpr (Or.inl rfl), View.mem_set_unit_zero hz1 inb_S2048x512_S2048x512_0_0 y⟩
  exact ⟨fun _ => (View.read_writes_eq_canon _ _ _ h).trans (View.canon_cons_unit_zero hz1 _ _ _),
    (View.readCov_eq_canon_ld _ _ _ h).trans (by rw [View.canon_cons_unit_zero hz1, View.ld_unit_zero hz1])⟩

-- The body adds the product of its input blocks to the accumulator, zeroed first at the first column block, and at the last one writes out the rectified sum.
theorem kernel1_run (c : Dev nD) (E : Set ℕ) (i : grid1.Coords)
    (arg2 : Memref sig .tc .vmem S2048x1024 .bf16) (harg2 : arg2.IsWhole) (arg3 : Memref sig .tc .vmem S1024x512 .bf16) (harg3 : arg3.IsWhole)
    (arg4 : Memref sig .tc .vmem S2048x512 .f32) (harg4 : arg4.IsWhole) (arg5 : Memref sig .tc .vmem S2048x512 .f32) (harg5 : arg5.IsWhole)
    (x0 : Vec F S2048x1024 .bf16) (x1 : Vec F S1024x512 .bf16) (xi2 xs : Vec F S2048x512 .f32) (K : PUnit → sProp 𝕄) :
    iprop(owns c.tc arg2 fullShare x0 ∗ owns c.tc arg3 fullShare x1 ∗ owns c.tc arg4 fullShare xi2
        ∗ owns c.tc arg5 fullShare xs
        ∗ (iprop(owns c.tc arg2 fullShare x0 ∗ owns c.tc arg3 fullShare x1
            ∗ owns c.tc arg4 fullShare (if cond1_1 i then k1_pay3 (k1_pay2 x0 x1 (if cond1_0 i then k1_pay1 (F := F) else xs)) else xi2)
            ∗ owns c.tc arg5 fullShare (k1_pay2 x0 x1 (if cond1_0 i then k1_pay1 (F := F) else xs))) -∗ K ⟨⟩))
      ⊢ wp frame (wpE (defs₀ (F := F)) Variants.none c none) E (cc1__gcn_kernel i arg2 harg2 arg3 harg3 arg4 harg4 arg5 harg5) K := by
  by_cases hc0 : cond1_0 i <;> by_cases hc1 : cond1_1 i <;>
    (first | rw [if_pos hc0] | rw [if_neg hc0]) <;> (first | rw [if_pos hc1] | rw [if_neg hc1])
  all_goals
    simp only [cc1__gcn_kernel_eq_skeleton]; unfold cc1__gcn_kernel_skel owns
    iintro ⟨⟨%f0, %hf0, H0⟩, ⟨%f1, %hf1, H1⟩, ⟨%f2, %hf2, H2⟩, ⟨%fs, %hfs, HS⟩, Hk⟩
    subst hf0; subst hf1; subst hf2; subst hfs
    sl_exec (disch := first | exact hc0 | exact hc1)
    sl_step
    iapply Hk
    isplitl [H0]; rotate_left; isplitl [H1]; rotate_left; isplitl [H2]; rotate_left
    all_goals
      iexists _; isplitr
      swap; · iassumption
      ipureintro
      first
      | with_reducible rfl
      | sl_unfold_words
        rw [(hz1_read _ _ _).1]
        simp only [(hz1_read _ _ _).2, View.readAt_eq_ld, View.ld_unit_zero (S := S2048x1024) hz1, View.ld_unit_zero (S := S1024x512) hz1,
          View.ld_unit_zero (S := S2048x512) hz1]

-- Before every position the accumulator holds some value; past the first position, the value the previous one left.
theorem PhiS1_open (c : Dev nD) (j : Fin (cfg1.N + 1)) :
    (dat1 V c).Φ j ⊢ iprop(∃ xs, ⌜∀ hz : j.val ≠ 0, xs = acc1 V c (j.val - 1) (by have := j.isLt; omega)⌝
      ∗ owns c.tc scM1 fullShare xs ∗ PhiS1_rest c) := by
  obtain ⟨n, hn⟩ := j
  show PhiS1 V c n _ ⊢ _
  cases n with
  | zero =>
    unfold PhiS1 Pipeline.ΦA PhiS1_rest; rw [scopedRest1_split]
    iintro ⟨⟨⟨%d, HS⟩, Hr⟩, Hg⟩
    iexists d; isplitr; · ipureintro; exact fun hz => absurd rfl hz
    rw [owns_whole]; iframe
  | succ n =>
    unfold PhiS1
    iintro H; iexists _; isplitr; swap; · iexact H
    ipureintro; exact fun _ => rfl

-- One step of the running sum, whichever column block the position is in.
theorem acc1_step (c : Dev nD) (t : Fin cfg1.N) (xs : Vec F S2048x512 .f32)
    (h : t.val ≠ 0 → xs = acc1 V c (t.val - 1) (Nat.lt_of_le_of_lt (Nat.sub_le _ _) t.isLt)) :
    k1_pay2 (iblk1 V c 0 t) (iblk1 V c 1 t) (if cond1_0 (grid1.coords t) then k1_pay1 (F := F) else xs)
      = acc1 V c t.val t.isLt := by
  by_cases h0 : t.val % 8 = 0
  · rw [if_pos ((hcond1_0 t).mpr h0), acc1_first V c t h0]
  · rw [if_neg (mt (hcond1_0 t).mp h0), acc1_next V c t h0, h fun hz => h0 (by rw [hz])]

-- The output block after the body: the rectified sum at the last column block, unchanged elsewhere.
theorem after1_leaves (c : Dev nD) (t : Fin cfg1.N) (d) :
    owns c.tc (st1_2 t) fullShare
        (if cond1_1 (grid1.coords t) then k1_pay3 (acc1 V c t.val t.isLt) else (dat1 V c).before 2 t d)
      ⊢ (dat1 V c).leavesExact 2 t := by
  by_cases hc1 : cond1_1 (grid1.coords t)
  · rw [if_pos hc1]; unfold Dat.leavesExact; rw [liveAt1_2 t hc1]
    iintro H; iexact H
  · rw [if_neg hc1, Dat.leavesExact_idle (dat1 V c) 2 t (idleAt1_2 t hc1).1 (idleAt1_2 t hc1).2]
    iintro H; iexists _; iexact H

theorem sound_body1 (c : Dev nD) (t : Fin cfg1.N) :
    iprop((dat1 V c).Φ t.castSucc ∗ (dat1 V c).owesAt () t.castSucc
        ∗ (∃ d, owns c.tc (st1_0 t) fullShare ((dat1 V c).before 0 t d))
        ∗ (∃ d, owns c.tc (st1_1 t) fullShare ((dat1 V c).before 1 t d))
        ∗ (∃ d, owns c.tc (st1_2 t) fullShare ((dat1 V c).before 2 t d)))
      ⊢ wp frame (wpE (defs₀ (F := F)) Variants.none c none) Set.univ (bodyAt1 t) fun _ =>
        iprop((dat1 V c).Φ t.succ ∗ (dat1 V c).owesAt () t.succ
          ∗ (dat1 V c).leavesExact 0 t ∗ (dat1 V c).leavesExact 1 t ∗ (dat1 V c).leavesExact 2 t) := by
  unfold bodyAt1
  simp only [(before1_in V c t).1, (before1_in V c t).2]
  rw [show (dat1 V c).owesAt () t.succ = (dat1 V c).owesAt () t.castSucc from rfl,
    show (dat1 V c).Φ t.succ = iprop(owns c.tc scM1 fullShare (acc1 V c t.val t.isLt) ∗ PhiS1_rest c) from rfl,
    show (dat1 V c).leavesExact 0 t = owns c.tc (st1_0 t) fullShare (iblk1 V c 0 t) from by
      unfold Dat.leavesExact; rw [(liveAt1_in t).1]; rfl,
    show (dat1 V c).leavesExact 1 t = owns c.tc (st1_1 t) fullShare (iblk1 V c 1 t) from by
      unfold Dat.leavesExact; rw [(liveAt1_in t).2]; rfl]
  iintro ⟨HΦ, Ho, ⟨%d0, H0⟩, ⟨%d1, H1⟩, ⟨%d2, H2⟩⟩
  ihave ⟨%xs, %hxs, HS, Hr⟩ := (PhiS1_open V c t.castSucc) $$ HΦ
  iapply (kernel1_run c Set.univ (grid1.coords t) _ _ _ _ _ _ _ _ (iblk1 V c 0 t) (iblk1 V c 1 t) ((dat1 V c).before 2 t d2) xs _)
  iframe H0 H1 H2 HS
  iintro ⟨H0, H1, H2, HS⟩
  rw [acc1_step V c t xs hxs]
  iframe HS Hr Ho H0 H1
  iapply (after1_leaves V c t d2); iexact H2

theorem body_obligation1 (c : Dev nD) :
    BodyObligation (dat1 (F := F) V c) (defs₀ (F := F)) Variants.none () Set.univ := fun t => by
  rw [bigSep_W1, bigSep_W1]
  exact sound_body1 V c t

theorem hin1 (c : Dev nD) :
    (iprop((∃ r, prngReg c r) ∗ Pipeline.scopedRest (Ix := Unit) (Name := ℕ) (U := UR sig nD τ) (Lvl := ℕ) (Val := Elt F) spec1 c) : sProp 𝕄)
      ⊢ (dat1 V c).Φ 0 := by
  show _ ⊢ Pipeline.ΦA spec1 c
  unfold Pipeline.ΦA
  iintro ⟨Hg, Hr⟩
  iframe

theorem hout1 (c : Dev nD) :
    (dat1 V c).Φ (Fin.last cfg1.N)
      ⊢ (iprop((∃ r, prngReg c r) ∗ Pipeline.scopedRest (Ix := Unit) (Name := ℕ) (U := UR sig nD τ) (Lvl := ℕ) (Val := Elt F) spec1 c) : sProp 𝕄) := by
  rw [scopedRest1_split]
  have h := PhiS1_open V c (Fin.last cfg1.N)
  simp only [scM1, owns_whole] at h
  iintro H
  ihave ⟨%xs, -, HS, Hr, Hg⟩ := h $$ H
  iframe Hg Hr
  iexists _; iexact HS

end Cert.KernelIdeal.Hand

end
-- ==== Proof.Reg2.lean ====
import proofs.«400709_j481036337855_3_alg».proof.Proof.Common
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

abbrev scM2 : Memref sig .tc .vmem S1024x1536 .f32 := Memref.whole cc2_scratch0

-- The running sum of block products over the column blocks of a row block, restarted at each first column block.
noncomputable def acc2 (c : Dev nD) : (n : ℕ) → n < cfg2.N → Vec F S1024x1536 .f32
  | 0, hn => k2_pay2 (iblk2 V c 0 ⟨0, hn⟩) (iblk2 V c 1 ⟨0, hn⟩) (k2_pay1 (F := F))
  | n + 1, hn =>
    if (n + 1) % 16 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (acc2 c n (Nat.lt_of_succ_lt hn))

theorem acc2_first (c : Dev nD) (t : Fin cfg2.N) (h : t.val % 16 = 0) :
    acc2 V c t.val t.isLt = k2_pay2 (iblk2 V c 0 t) (iblk2 V c 1 t) (k2_pay1 (F := F)) := by
  obtain ⟨n, hn⟩ := t
  cases n with
  | zero => rfl
  | succ n => exact (if_pos h).trans rfl

theorem acc2_next (c : Dev nD) (t : Fin cfg2.N) (h : t.val % 16 ≠ 0) :
    acc2 V c t.val t.isLt
      = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact (if_neg h).trans rfl

noncomputable def out2 (c : Dev nD) (t : Fin cfg2.N) : Vec F S1024x1536 .f32 := k2_pay3 (acc2 V c t.val t.isLt)

abbrev PhiS2_rest (c : Dev nD) : sProp 𝕄 :=
  iprop(Pipeline.scopedRestBut (Ix := Unit) (Name := ℕ) (U := UR sig nD τ) (Lvl := ℕ) (Val := Elt F) spec2 c [cc2_scratch0]
    ∗ ∃ r, prngReg c r)

noncomputable def PhiS2 (c : Dev nD) : (n : ℕ) → n ≤ cfg2.N → sProp 𝕄
  | 0, _ => Pipeline.ΦA spec2 c
  | n + 1, hn => iprop(owns c.tc scM2 fullShare (acc2 V c n (Nat.lt_of_succ_le hn)) ∗ PhiS2_rest c)

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_2 (c : Dev nD) (t : Fin cfg2.N) : (dat2 V c).after 2 t = out2 V c t := rfl

theorem before2_in (c : Dev nD) (t : Fin cfg2.N) :
    (∀ d, (dat2 V c).before 0 t d = iblk2 V c 0 t) ∧ ∀ d, (dat2 V c).before 1 t d = iblk2 V c 1 t := by
  constructor <;> intro d <;>
  exact ((dat2 V c).before_in_eq_fetched _ rfl (fun _ => rfl) (fun _ _ _ => rfl)
    (fun t => by dsimp only [dat2]; unfold Dat.blockOf iblk2; try rfl) t d).trans
    (by unfold Dat.fetched Dat.blockOf iblk2; rw [A_eq2]; try rfl)

abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

theorem liveAt2_in : ∀ t : Fin cfg2.N, cfg2.idle 0 (grid2.coords t) = false ∧ cfg2.idle 1 (grid2.coords t) = false := by
  decide +kernel
theorem idleAt2_2 : ∀ t : Fin cfg2.N, ¬cond2_1 (grid2.coords t) →
    cfg2.idle 2 (grid2.coords t) = true ∧ (cfg2.win 2).flush t = false := by decide +kernel
theorem liveAt2_2 : ∀ t : Fin cfg2.N, cond2_1 (grid2.coords t) → cfg2.idle 2 (grid2.coords t) = false := by decide +kernel

theorem hz2 : (![0, 0] : Fin S1024x1536.rank → ℕ) = fun _ => 0 := by
  funext a; match a with | ⟨0, _⟩ => rfl | ⟨1, _⟩ => rfl

abbrev rS2 : Rect S1024x1536 := Rect.unit ![0, 0] S1024x1536.size inb_S1024x1536_S1024x1536_0_0

-- After a list of writes whose last one covers every index, every read returns that last write's value.
theorem hz2_read {κ : Kind} {sp : Space} {e : EltTy} (v : View sig κ sp S1024x1536 e)
    (w : S1024x1536.Idx → Elt F e) (L : List (View.Piece (Elt F) S1024x1536 e)) :
    (∀ f, v.read (Elt F) (v.writes (Elt F) f (⟨rS2, w⟩ :: L)) = w) ∧ v.readCov (⟨rS2, w⟩ :: L) rS2.toLoadRect = w := by
  have h (y) : ∃ p ∈ (⟨rS2, w⟩ :: L : List (View.Piece (Elt F) S1024x1536 e)), y ∈ p.1.set :=
    ⟨_, List.mem_cons.mpr (Or.inl rfl), View.mem_set_unit_zero hz2 inb_S1024x1536_S1024x1536_0_0 y⟩
  exact ⟨fun _ => (View.read_writes_eq_canon _ _ _ h).trans (View.canon_cons_unit_zero hz2 _ _ _),
    (View.readCov_eq_canon_ld _ _ _ h).trans (by rw [View.canon_cons_unit_zero hz2, View.ld_unit_zero hz2])⟩

-- The body adds the product of its input blocks to the accumulator, zeroed first at the first column block, and at the last one writes out the rectified sum.
theorem kernel2_run (c : Dev nD) (E : Set ℕ) (i : grid2.Coords)
    (arg2 : Memref sig .tc .vmem S1024x512 .bf16) (harg2 : arg2.IsWhole) (arg3 : Memref sig .tc .vmem S512x1536 .bf16) (harg3 : arg3.IsWhole)
    (arg4 : Memref sig .tc .vmem S1024x1536 .f32) (harg4 : arg4.IsWhole) (arg5 : Memref sig .tc .vmem S1024x1536 .f32) (harg5 : arg5.IsWhole)
    (x0 : Vec F S1024x512 .bf16) (x1 : Vec F S512x1536 .bf16) (xi2 xs : Vec F S1024x1536 .f32) (K : PUnit → sProp 𝕄) :
    iprop(owns c.tc arg2 fullShare x0 ∗ owns c.tc arg3 fullShare x1 ∗ owns c.tc arg4 fullShare xi2
        ∗ owns c.tc arg5 fullShare xs
        ∗ (iprop(owns c.tc arg2 fullShare x0 ∗ owns c.tc arg3 fullShare x1
            ∗ owns c.tc arg4 fullShare (if cond2_1 i then k2_pay3 (k2_pay2 x0 x1 (if cond2_0 i then k2_pay1 (F := F) else xs)) else xi2)
            ∗ owns c.tc arg5 fullShare (k2_pay2 x0 x1 (if cond2_0 i then k2_pay1 (F := F) else xs))) -∗ K ⟨⟩))
      ⊢ wp frame (wpE (defs₀ (F := F)) Variants.none c none) E (cc2__gcn_kernel i arg2 harg2 arg3 harg3 arg4 harg4 arg5 harg5) K := by
  by_cases hc0 : cond2_0 i <;> by_cases hc1 : cond2_1 i <;>
    (first | rw [if_pos hc0] | rw [if_neg hc0]) <;> (first | rw [if_pos hc1] | rw [if_neg hc1])
  all_goals
    simp only [cc2__gcn_kernel_eq_skeleton]; unfold cc2__gcn_kernel_skel owns
    iintro ⟨⟨%f0, %hf0, H0⟩, ⟨%f1, %hf1, H1⟩, ⟨%f2, %hf2, H2⟩, ⟨%fs, %hfs, HS⟩, Hk⟩
    subst hf0; subst hf1; subst hf2; subst hfs
    sl_exec (disch := first | exact hc0 | exact hc1)
    sl_step
    iapply Hk
    isplitl [H0]; rotate_left; isplitl [H1]; rotate_left; isplitl [H2]; rotate_left
    all_goals
      iexists _; isplitr
      swap; · iassumption
      ipureintro
      first
      | with_reducible rfl
      | sl_unfold_words
        rw [(hz2_read _ _ _).1]
        simp only [(hz2_read _ _ _).2, View.readAt_eq_ld, View.ld_unit_zero (S := S1024x512) hz2, View.ld_unit_zero (S := S512x1536) hz2,
          View.ld_unit_zero (S := S1024x1536) hz2]

-- Before every position the accumulator holds some value; past the first position, the value the previous one left.
theorem PhiS2_open (c : Dev nD) (j : Fin (cfg2.N + 1)) :
    (dat2 V c).Φ j ⊢ iprop(∃ xs, ⌜∀ hz : j.val ≠ 0, xs = acc2 V c (j.val - 1) (by have := j.isLt; omega)⌝
      ∗ owns c.tc scM2 fullShare xs ∗ PhiS2_rest c) := by
  obtain ⟨n, hn⟩ := j
  show PhiS2 V c n _ ⊢ _
  cases n with
  | zero =>
    unfold PhiS2 Pipeline.ΦA PhiS2_rest; rw [scopedRest2_split]
    iintro ⟨⟨⟨%d, HS⟩, Hr⟩, Hg⟩
    iexists d; isplitr; · ipureintro; exact fun hz => absurd rfl hz
    rw [owns_whole]; iframe
  | succ n =>
    unfold PhiS2
    iintro H; iexists _; isplitr; swap; · iexact H
    ipureintro; exact fun _ => rfl

-- One step of the running sum, whichever column block the position is in.
theorem acc2_step (c : Dev nD) (t : Fin cfg2.N) (xs : Vec F S1024x1536 .f32)
    (h : t.val ≠ 0 → xs = acc2 V c (t.val - 1) (Nat.lt_of_le_of_lt (Nat.sub_le _ _) t.isLt)) :
    k2_pay2 (iblk2 V c 0 t) (iblk2 V c 1 t) (if cond2_0 (grid2.coords t) then k2_pay1 (F := F) else xs)
      = acc2 V c t.val t.isLt := by
  by_cases h0 : t.val % 16 = 0
  · rw [if_pos ((hcond2_0 t).mpr h0), acc2_first V c t h0]
  · rw [if_neg (mt (hcond2_0 t).mp h0), acc2_next V c t h0, h fun hz => h0 (by rw [hz])]

-- The output block after the body: the rectified sum at the last column block, unchanged elsewhere.
theorem after2_leaves (c : Dev nD) (t : Fin cfg2.N) (d) :
    owns c.tc (st2_2 t) fullShare
        (if cond2_1 (grid2.coords t) then k2_pay3 (acc2 V c t.val t.isLt) else (dat2 V c).before 2 t d)
      ⊢ (dat2 V c).leavesExact 2 t := by
  by_cases hc1 : cond2_1 (grid2.coords t)
  · rw [if_pos hc1]; unfold Dat.leavesExact; rw [liveAt2_2 t hc1]
    iintro H; iexact H
  · rw [if_neg hc1, Dat.leavesExact_idle (dat2 V c) 2 t (idleAt2_2 t hc1).1 (idleAt2_2 t hc1).2]
    iintro H; iexists _; iexact H

theorem sound_body2 (c : Dev nD) (t : Fin cfg2.N) :
    iprop((dat2 V c).Φ t.castSucc ∗ (dat2 V c).owesAt () t.castSucc
        ∗ (∃ d, owns c.tc (st2_0 t) fullShare ((dat2 V c).before 0 t d))
        ∗ (∃ d, owns c.tc (st2_1 t) fullShare ((dat2 V c).before 1 t d))
        ∗ (∃ d, owns c.tc (st2_2 t) fullShare ((dat2 V c).before 2 t d)))
      ⊢ wp frame (wpE (defs₀ (F := F)) Variants.none c none) Set.univ (bodyAt2 t) fun _ =>
        iprop((dat2 V c).Φ t.succ ∗ (dat2 V c).owesAt () t.succ
          ∗ (dat2 V c).leavesExact 0 t ∗ (dat2 V c).leavesExact 1 t ∗ (dat2 V c).leavesExact 2 t) := by
  unfold bodyAt2
  simp only [(before2_in V c t).1, (before2_in V c t).2]
  rw [show (dat2 V c).owesAt () t.succ = (dat2 V c).owesAt () t.castSucc from rfl,
    show (dat2 V c).Φ t.succ = iprop(owns c.tc scM2 fullShare (acc2 V c t.val t.isLt) ∗ PhiS2_rest c) from rfl,
    show (dat2 V c).leavesExact 0 t = owns c.tc (st2_0 t) fullShare (iblk2 V c 0 t) from by
      unfold Dat.leavesExact; rw [(liveAt2_in t).1]; rfl,
    show (dat2 V c).leavesExact 1 t = owns c.tc (st2_1 t) fullShare (iblk2 V c 1 t) from by
      unfold Dat.leavesExact; rw [(liveAt2_in t).2]; rfl]
  iintro ⟨HΦ, Ho, ⟨%d0, H0⟩, ⟨%d1, H1⟩, ⟨%d2, H2⟩⟩
  ihave ⟨%xs, %hxs, HS, Hr⟩ := (PhiS2_open V c t.castSucc) $$ HΦ
  iapply (kernel2_run c Set.univ (grid2.coords t) _ _ _ _ _ _ _ _ (iblk2 V c 0 t) (iblk2 V c 1 t) ((dat2 V c).before 2 t d2) xs _)
  iframe H0 H1 H2 HS
  iintro ⟨H0, H1, H2, HS⟩
  rw [acc2_step V c t xs hxs]
  iframe HS Hr Ho H0 H1
  iapply (after2_leaves V c t d2); iexact H2

theorem body_obligation2 (c : Dev nD) :
    BodyObligation (dat2 (F := F) V c) (defs₀ (F := F)) Variants.none () Set.univ := fun t => by
  rw [bigSep_W2, bigSep_W2]
  exact sound_body2 V c t

theorem hin2 (c : Dev nD) :
    (iprop((∃ r, prngReg c r) ∗ Pipeline.scopedRest (Ix := Unit) (Name := ℕ) (U := UR sig nD τ) (Lvl := ℕ) (Val := Elt F) spec2 c) : sProp 𝕄)
      ⊢ (dat2 V c).Φ 0 := by
  show _ ⊢ Pipeline.ΦA spec2 c
  unfold Pipeline.ΦA
  iintro ⟨Hg, Hr⟩
  iframe

theorem hout2 (c : Dev nD) :
    (dat2 V c).Φ (Fin.last cfg2.N)
      ⊢ (iprop((∃ r, prngReg c r) ∗ Pipeline.scopedRest (Ix := Unit) (Name := ℕ) (U := UR sig nD τ) (Lvl := ℕ) (Val := Elt F) spec2 c) : sProp 𝕄) := by
  rw [scopedRest2_split]
  have h := PhiS2_open V c (Fin.last cfg2.N)
  simp only [scM2, owns_whole] at h
  iintro H
  ihave ⟨%xs, -, HS, Hr, Hg⟩ := h $$ H
  iframe Hg Hr
  iexists _; iexact HS

end Cert.KernelIdeal.Hand

end
-- ==== Proof.Reg3.lean ====
import proofs.«400709_j481036337855_3_alg».proof.Proof.Common
import Idealize.ShloMosaic.Lib.Pipeline.Value

noncomputable section

namespace Cert.KernelIdeal.Hand

open Idealize.ShloMosaic Idealize.ShloMosaic.TcCoe
open Idealize.SL Idealize.SL.RA Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The first block times the transpose of the second. -/
noncomputable def out3 (c : Dev nD) (t : Fin cfg3.N) : Vec F S2048x1024 .f32 := k3_pay1 (iblk3 V c 0 t) (iblk3 V c 1 t)

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t
  Φ _ := Pipeline.ΦA spec3 c
  q w := match w with
    | ⟨0, _⟩ => fullShare.left
    | ⟨1, _⟩ => fullShare.right
    | ⟨2, _⟩ => fullShare
  owed _ := 0

theorem after3_2 (c : Dev nD) (t : Fin cfg3.N) : (dat3 V c).after 2 t = out3 V c t := rfl

theorem zero2 : (![0, 0] : Fin 2 → Nat) = fun _ => 0 := funext fun a => by fin_cases a <;> rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

/-- At every grid point the body computes that product from the two input blocks. -/
theorem sound_body3 (c : Dev nD) (t : Fin cfg3.N) :
    iprop(Pipeline.ΦA spec3 c ∗ (dat3 V c).owesAt () t.castSucc
      ∗ (∃ d, owns c (st3_0 t) fullShare ((dat3 V c).before 0 t d))
      ∗ (∃ d, owns c (st3_1 t) fullShare ((dat3 V c).before 1 t d))
      ∗ (∃ d, owns c (st3_2 t) fullShare ((dat3 V c).before 2 t d)))
    ⊢ wp frame (wpE (defs₀ (F := F)) Variants.none c none) Set.univ (bodyAt3 t) fun _ =>
      iprop(Pipeline.ΦA spec3 c ∗ (dat3 V c).owesAt () t.castSucc
        ∗ owns c (st3_0 t) fullShare (iblk3 V c 0 t)
        ∗ owns c (st3_1 t) fullShare (iblk3 V c 1 t)
        ∗ owns c (st3_2 t) fullShare (out3 V c t)) := by
  simp only [before3_0, before3_1, bodyAt3, cc3__ip_kernel_eq_skeleton]
  unfold cc3__ip_kernel_skel owns
  iintro ⟨HΦ, Ho, ⟨%d0, %f0, %hf0, H0⟩, ⟨%d1, %f1, %hf1, H1⟩, ⟨%d2, %f2, -, H2⟩⟩
  sl_exec
  sl_step
  iframe HΦ Ho
  isplitl [H0]
  · iexists f0; isplitr; · ipureintro; exact hf0
    iexact H0
  isplitl [H1]
  · iexists f1; isplitr; · ipureintro; exact hf1
    iexact H1
  iexists _; isplitr
  swap; · iexact H2
  ipureintro
  rw [View.read_writes_eq_canon _ _ _ (fun y => ⟨_, List.mem_singleton_self _,
      View.mem_set_unit_zero zero2 inb_S2048x1024_S2048x1024_0_0 y⟩),
    View.canon_unit_zero zero2, out3, ← hf0, ← hf1]
  exact congrArg₂ k3_pay1 (View.ld_unit_zero zero2 _ _) (View.ld_unit_zero zero2 _ _)

theorem body_obligation3 (c : Dev nD) :
    BodyObligation (dat3 (F := F) V c) (defs₀ (F := F)) Variants.none () Set.univ := fun t => by
  rw [bigSep_W3, bigSep_W3]
  exact sound_body3 V c t

theorem hin3 (c : Dev nD) :
    (iprop((∃ r, prngReg c r) ∗ Pipeline.scopedRest (Ix := Unit) (Name := ℕ) (U := UR sig nD τ) (Lvl := ℕ) (Val := Elt F) spec3 c) : sProp 𝕄)
      ⊢ (dat3 V c).Φ 0 := sep_comm

theorem hout3 (c : Dev nD) :
    (dat3 V c).Φ (Fin.last cfg3.N)
      ⊢ (iprop((∃ r, prngReg c r) ∗ Pipeline.scopedRest (Ix := Unit) (Name := ℕ) (U := UR sig nD τ) (Lvl := ℕ) (Val := Elt F) spec3 c) : sProp 𝕄) := sep_comm

/-- A full share is its left half together with its right half. -/
theorem halves {ℓ : Loc nD τ sig} (f : Buf (Elt F) ℓ) (P : sProp 𝕄) :
    iprop((ℓ ↦{fullShare} f) ∗ P) = iprop((ℓ ↦{fullShare.left} f) ∗ (ℓ ↦{fullShare.right} f) ∗ P) :=
  have s := pointsTo_share (ℓ := ℓ) (f := f) (I := Finset.univ) (PosShare.mem_left_op_right fullShare)
  (congrArg (iprop(· ∗ P)) (equiv_iff.1 ⟨s.1, s.2⟩)).trans (equiv_iff.1 ⟨sep_assoc, sep_assoc'⟩)

theorem bufs3 (c : Dev nD) (X Y : (b : Ref sig .tc) → Buf (Elt F) ((c : Thread nD τ).loc b))
    (G : (w : Fin cfg3.W) → Buf (Elt F) ((cfg3.win w).arr.view.loc (c : Thread nD τ)))
    (h0 : G 0 = X main_v94) (h1 : G 1 = X main_v94) (h2 : G 2 = X main_v95)
    (hY : ∀ b, b ≠ Pipeline.arrRef spec3 2 → X b = Y b) :
    (unscopedBufs c X : sProp 𝕄) = iprop((dat3 V c).arrays G
      ∗ Pipeline.unscopedRest (Ix := Unit) (Name := ℕ) (U := UR sig nD τ) (Lvl := ℕ) spec3 c Y) := by
  classical
  rw [Pipeline.unscopedBufs_split₀ (cfgs := cfgs) (p := 3) winFacts₀3.arr_unscoped]
  refine congr (congrArg _ ?_) (bigSep_congr fun b hb => by
    rw [hY b fun e => (Finset.mem_sdiff.mp hb).2 (Finset.mem_image.mpr ⟨2, Finset.mem_univ _, e.symm⟩)])
  unfold Pipeline.arrBufs Dat.arrays
  rw [show Finset.univ.image (Pipeline.arrRef (cfgs 3).spec) = {main_v94, main_v95} from by decide,
    bigSep_insert (by decide), bigSep_singleton, bigSep_W3, (arr_whole3 0).set_eq_univ, (arr_whole3 2).set_eq_univ,
    h0, h1, h2]
  exact halves _ _

theorem split3 (c : Dev nD) (W : Valuation τ sig (Elt F)) (hV : ∀ b : Ref sig .tc, V c b = W b) :
    (StableHlo.held (c : Thread nD τ) (Pipeline.ucRefs τ sig) W : sProp 𝕄)
      ⊢ iprop((dat3 V c).arrays ((dat3 V c).arrAt · 0)
          ∗ Pipeline.unscopedRest (Ix := Unit) (Name := ℕ) (U := UR sig nD τ) (Lvl := ℕ) spec3 c (V c)) := by
  rw [← Pipeline.unscopedBufs_held (Ix := Unit) (Name := ℕ) (U := UR sig nD τ) (Lvl := ℕ) c W,
    show (fun b : Ref sig .tc => W b) = V c from funext fun b => (hV b).symm,
    bufs3 V c (V c) (V c) ((dat3 V c).arrAt · 0) rfl rfl rfl fun _ _ => rfl]

theorem join3 (c : Dev nD) (W' : Valuation τ sig (Elt F))
    (hout : (dat3 V c).arrAt 2 cfg3.N = W' (Pipeline.arrRef spec3 2))
    (hrest : ∀ b : Ref sig .tc, b ≠ Pipeline.arrRef spec3 2 → W' b = V c b) :
    iprop((dat3 V c).arrays ((dat3 V c).arrAt · cfg3.N)
          ∗ Pipeline.unscopedRest (Ix := Unit) (Name := ℕ) (U := UR sig nD τ) (Lvl := ℕ) spec3 c (V c))
      ⊢ (StableHlo.held (c : Thread nD τ) (Pipeline.ucRefs τ sig) W' : sProp 𝕄) := by
  have e := (hrest main_v94 (by decide)).symm
  rw [← Pipeline.unscopedBufs_held (Ix := Unit) (Name := ℕ) (U := UR sig nD τ) (Lvl := ℕ) c W',
    bufs3 V c (fun b => W' b) (V c) ((dat3 V c).arrAt · cfg3.N) (((dat3 V c).arrAt_in 0 rfl _).trans e) (((dat3 V c).arrAt_in 1 rfl _).trans e) hout hrest]

end Cert.KernelIdeal.Hand

end
-- ==== Proof.Run.lean ====
import proofs.«400709_j481036337855_3_alg».proof.Proof.Reg0
import proofs.«400709_j481036337855_3_alg».proof.Proof.Reg1
import proofs.«400709_j481036337855_3_alg».proof.Proof.Reg2
import proofs.«400709_j481036337855_3_alg».proof.Proof.Reg3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)
abbrev W1 : Dev nD → Valuation τ sig (Elt F) := fun c => StableHlo.after hostOps0 (W0 m c)
abbrev E1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev W3 : Dev nD → Valuation τ sig (Elt F) := fun c => StableHlo.after hostOps1 (W2 m c)
abbrev E3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev E7 : (c : Dev nD) → (b : Ref sig .tc) → Buf (Elt F) ((c : Thread nD τ).loc b) := fun c b => W7 m c b
def W8 (c : Dev nD) : Valuation τ sig (Elt F) :=
  Pipeline.withArrays spec2 c (W7 m c) fun w => (dat2 (E7 m) c).arrAt w cfg2.N
theorem W8_arr (c : Dev nD) (w : Fin cfg2.W) :
    W8 m c (Proc.devRef .tc (Pipeline.arrRef spec2 w)) = (dat2 (E7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev W9 : Dev nD → Valuation τ sig (Elt F) := fun c => StableHlo.after hostOps3 (W8 m c)
abbrev E9 : (c : Dev nD) → (b : Ref sig .tc) → Buf (Elt F) ((c : Thread nD τ).loc b) := fun c b => W9 m c b
def W10 (c : Dev nD) : Valuation τ sig (Elt F) :=
  Function.update (W9 m c) (Proc.devRef .tc main_v95) ((dat3 (E9 m) c).arrAt 2 cfg3.N)
theorem W10_out (c : Dev nD) : W10 m c (Proc.devRef .tc main_v95) = (dat3 (E9 m) c).arrAt 2 cfg3.N := by
  unfold W10; exact Function.update_self _ _ _
theorem W10_of_ne (c : Dev nD) (b : Ref sig .tc) (hb : b ≠ main_v95) :
    W10 m c (Proc.devRef .tc b) = W9 m c (Proc.devRef .tc b) := by
  unfold W10; exact Function.update_of_ne (StableHlo.devRef_ne_of_ne hb) _ _

abbrev args : List (Ref sig .tc) :=
  [main_arg0, main_arg1, main_arg2, main_arg3, main_arg4, main_arg5, main_arg6, main_arg7, main_arg8, main_arg9,
    main_arg10, main_arg11, main_arg12]

/-- No item of the main function writes an argument. -/
theorem args_unwritten : ∀ r ∈ args, (¬ (Proc.devRef .tc r : DevRef τ sig).isScoped) ∧ r ∉ hostOps3_W ∧ r ∉ hostOps2_2_W
    ∧ r ∉ hostOps2_1_W ∧ r ∉ hostOps2_W ∧ r ∉ hostOps1_W ∧ r ∉ hostOps0_W ∧ r ≠ main_v95
    ∧ (∀ w, Pipeline.arrRef spec2 w ≠ r) ∧ (∀ w, Pipeline.arrRef spec1 w ≠ r)
    ∧ (r ≠ main_arg1 → ∀ w, Pipeline.arrRef spec0 w ≠ r) := by decide

/-- So an argument's last value is its first: the items walked back one by one. -/
theorem W10_arg (c : Dev nD) (r : Ref sig .tc) (hr : r ∈ args) :
    W10 m c (Proc.devRef .tc r) = m ((c : Thread nD τ).loc r) := by
  obtain ⟨-, h3, h22, h21, h2, h1, h0, hv, hs2, hs1, hs0⟩ := args_unwritten r hr
  have e0 : W2 m c (Proc.devRef .tc r) = W1 m c (Proc.devRef .tc r) := by
    by_cases e : r = main_arg1
    · subst e; exact (W2_arr m c 3).trans (((dat0 (E1 m) c).arrAt_in 3 rfl _).trans (A_eq0 (E1 m) c 3))
    · exact W2_of_ne m c r (hs0 e)
  exact calc W10 m c (Proc.devRef .tc r)
    _ = W9 m c (Proc.devRef .tc r) := W10_of_ne m c r hv
    _ = W8 m c (Proc.devRef .tc r) := StableHlo.after_of_writes_sub hostOps3 _ hostOps3_writes h3
    _ = W7 m c (Proc.devRef .tc r) := W8_of_ne m c r hs2
    _ = W6 m c (Proc.devRef .tc r) := StableHlo.after_of_writes_sub hostOps2_2 _ hostOps2_2_writes h22
    _ = W5 m c (Proc.devRef .tc r) := StableHlo.after_of_writes_sub hostOps2_1 _ hostOps2_1_writes h21
    _ = W4 m c (Proc.devRef .tc r) := StableHlo.after_of_writes_sub hostOps2 _ hostOps2_writes h2
    _ = W3 m c (Proc.devRef .tc r) := W4_of_ne m c r hs1
    _ = W2 m c (Proc.devRef .tc r) := StableHlo.after_of_writes_sub hostOps1 _ hostOps1_writes h1
    _ = W1 m c (Proc.devRef .tc r) := e0
    _ = W0 m c (Proc.devRef .tc r) := StableHlo.after_of_writes_sub hostOps0 _ hostOps0_writes h0
    _ = m ((c : Thread nD τ).loc r) := rfl

def pdats : (p : Fin 4) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E7 m) c
  | ⟨3, _⟩ => fun c => dat3 (E9 m) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- A launch as a segment between two valuations, given how its arrays split off the rest and join it again. -/
def regOf (p : Fin 4) (win : Pipeline.WinFacts₀ (pcfgs (F := F) p).spec)
    (bpos : ∀ w : Fin (Pipeline.pin (pcfgs (F := F)) adm p).W, 0 < ((Pipeline.pin (pcfgs (F := F)) adm p).spec w).block.numel)
    (swhole : ∀ (w : Fin (Pipeline.pin (pcfgs (F := F)) adm p).W) (s : Fin ((Pipeline.pin (pcfgs (F := F)) adm p).spec w).nbuf),
      (((Pipeline.pin (pcfgs (F := F)) adm p).spec w).stage s).IsWhole)
    (Vin Vout : Dev nD → Valuation τ sig (Elt F)) (Z : Dev nD → sProp 𝕄)
    (howed : ∀ (c : Dev nD) t, (pdats m p c).owed t = 0) (hrec : ∀ c : Dev nD, (pdats m p c).recorded 0 = Set.univ)
    (hbody : ∀ c : Dev nD, BodyObligation (pdats m p c) (defs₀ (F := F)) Variants.none () Set.univ)
    (hin : ∀ c : Dev nD, (iprop((∃ r, prngReg c r) ∗ Pipeline.scopedRest (Ix := Unit) (Name := ℕ) (U := UR sig nD τ) (Lvl := ℕ) (Val := Elt F)
      (Pipeline.pin (pcfgs (F := F)) adm p).spec c) : sProp 𝕄) ⊢ (pdats m p c).Φ 0)
    (hout : ∀ c : Dev nD, (pdats m p c).Φ (Fin.last _) ⊢ (iprop((∃ r, prngReg c r) ∗ Pipeline.scopedRest (Ix := Unit) (Name := ℕ)
      (U := UR sig nD τ) (Lvl := ℕ) (Val := Elt F) (Pipeline.pin (pcfgs (F := F)) adm p).spec c) : sProp 𝕄))
    (hsplit : ∀ c : Dev nD, StableHlo.held (c : Thread nD τ) (Pipeline.ucRefs τ sig) (Vin c)
      ⊢ (iprop((pdats m p c).arrays ((pdats m p c).arrAt · 0) ∗ Z c) : sProp 𝕄))
    (hjoin : ∀ c : Dev nD, (iprop((pdats m p c).arrays ((pdats m p c).arrAt · (Pipeline.pin (pcfgs (F := F)) adm p).N) ∗ Z c) : sProp 𝕄)
      ⊢ StableHlo.held (c : Thread nD τ) (Pipeline.ucRefs τ sig) (Vout c)) :
    Pipeline.RegionSeg (pcfgs (F := F)) adm (pdats m) () defs₀ 𝒱₀ L lv p where
  win := win
  block_pos := bpos
  stage_whole := swhole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z := Z
  hentry c := by
    unfold Pipeline.Dat.owesAt
    rw [Pipeline.ownSems0_none, howed c]
    iintro ⟨⟨Hub, Hp, HO⟩, -, -⟩
    ihave H := (hsplit c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun _ _ => Or.inl ((hrec c).symm ▸ Set.mem_univ _)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H' := (hout c) $$ H
    icases H' with ⟨Hp, Hr⟩
    isplitl [Hp]; · iexact Hp
    isplitr; · iempintro
    iexact Hr
  hexit c := by
    unfold Pipeline.Dat.owesAt
    rw [howed c]
    iintro ⟨Ha, HO, HY, Hrest⟩
    imodintro
    isplitl [Ha Hrest]
    · iapply (hjoin c); isplitl [Ha] <;> iassumption
    isplitl [HY]; · iexact HY
    unfold Pipeline.owesWithin
    icases HO with ⟨%W, -, HO⟩; iexists W; iexact HO

set_option backward.isDefEq.respectTransparency.types false in
/-- The split and the join of a launch whose arrays are distinct. -/
def regOfLaunch (p : Fin 4) (lf : Pipeline.LaunchFacts (nD := nD) (τ := τ) cfgs p) (Vin Vout : Dev nD → Valuation τ sig (Elt F))
    (hA : ∀ (c : Dev nD) w, (pdats m p c).A w = Vin c (Pipeline.arrRef (Pipeline.pin (pcfgs (F := F)) adm p).spec w))
    (hq : ∀ (c : Dev nD) w, (pdats m p c).q w = fullShare) (howed : ∀ (c : Dev nD) t, (pdats m p c).owed t = 0) (hrec : ∀ c : Dev nD, (pdats m p c).recorded 0 = Set.univ)
    (hbody : ∀ c : Dev nD, BodyObligation (pdats m p c) (defs₀ (F := F)) Variants.none () Set.univ)
    (hin : ∀ c : Dev nD, (iprop((∃ r, prngReg c r) ∗ Pipeline.scopedRest (Ix := Unit) (Name := ℕ) (U := UR sig nD τ) (Lvl := ℕ) (Val := Elt F)
      (Pipeline.pin (pcfgs (F := F)) adm p).spec c) : sProp 𝕄) ⊢ (pdats m p c).Φ 0)
    (hout : ∀ c : Dev nD, (pdats m p c).Φ (Fin.last _) ⊢ (iprop((∃ r, prngReg c r) ∗ Pipeline.scopedRest (Ix := Unit) (Name := ℕ)
      (U := UR sig nD τ) (Lvl := ℕ) (Val := Elt F) (Pipeline.pin (pcfgs (F := F)) adm p).spec c) : sProp 𝕄))
    (harr : ∀ (c : Dev nD) w, (pdats m p c).arrAt w (Pipeline.pin (pcfgs (F := F)) adm p).N
      = Vout c (Pipeline.arrRef (Pipeline.pin (pcfgs (F := F)) adm p).spec w))
    (hne : ∀ (c : Dev nD) (b : Ref sig .tc), (∀ w, Pipeline.arrRef (Pipeline.pin (pcfgs (F := F)) adm p).spec w ≠ b) → Vout c b = Vin c b) :
    Pipeline.RegionSeg (pcfgs (F := F)) adm (pdats m) () defs₀ 𝒱₀ L lv p :=
  regOf m p lf.win.to₀ lf.block_pos lf.stage_whole Vin Vout
    (fun c => Pipeline.unscopedRest (Ix := Unit) (Name := ℕ) (U := UR sig nD τ) (Lvl := ℕ) (Pipeline.pin (pcfgs (F := F)) adm p).spec c
      fun b => Vin c b)
    howed hrec hbody hin hout
    (fun c => by
      have h := Pipeline.arrays_of_unscopedBufs (p := p) (pcfgs (F := F)) adm (pdats m) lf.win lf.arr_whole c
        ((pdats m p c).share_full (hq c)) (fun b => Vin c b) (hA c)
      rwa [Pipeline.unscopedBufs_held] at h)
    (fun c => by
      have h := Pipeline.unscopedBufs_of_arrays (p := p) (pcfgs (F := F)) adm (Ix := Unit) (Name := ℕ) (U := UR sig nD τ) (Lvl := ℕ)
        lf.win lf.arr_whole c (pdats m) ((pdats m p c).share_full (hq c)) (fun b => Vin c b) (fun b => Vout c b)
        ((pdats m p c).arrAt · (Pipeline.pin (pcfgs (F := F)) adm p).N) (harr c)
        (fun b hb => hne c b fun w e => hb (Finset.mem_image.mpr ⟨w, Finset.mem_univ _, e⟩))
      rwa [Pipeline.unscopedBufs_held] at h)

set_option backward.isDefEq.respectTransparency.types false in
/-- The main function's ten items in order. -/
abbrev segs : List (Pipeline.Seg (pcfgs (F := F)) adm (pdats m) () defs₀ 𝒱₀ L lv) :=
  [ .host (hseg hostOps0 hostOps0_sub hostOps0_fresh (W0 m)),
    .region (regOfLaunch m 0 launch0 (W1 m) (W2 m) (fun _ _ => rfl) (fun _ _ => rfl) (fun _ _ => rfl) (fun _ => rfl)
      (body_obligation0 (E1 m)) (hin0 (E1 m)) (hout0 (E1 m)) (fun c w => (W2_arr m c w).symm) (W2_of_ne m)),
    .host (hseg hostOps1 hostOps1_sub hostOps1_fresh (W2 m)),
    .region (regOfLaunch m 1 launch1 (W3 m) (W4 m) (fun _ _ => rfl) (fun _ _ => rfl) (fun _ _ => rfl) (fun _ => rfl)
      (body_obligation1 (E3 m)) (hin1 (E3 m)) (hout1 (E3 m)) (fun c w => (W4_arr m c w).symm) (W4_of_ne m)),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .region (regOfLaunch m 2 launch2 (W7 m) (W8 m) (fun _ _ => rfl) (fun _ _ => rfl) (fun _ _ => rfl) (fun _ => rfl)
      (body_obligation2 (E7 m)) (hin2 (E7 m)) (hout2 (E7 m)) (fun c w => (W8_arr m c w).symm) (W8_of_ne m)),
    .host (hseg hostOps3 hostOps3_sub hostOps3_fresh (W8 m)),
    .region (regOf m 3 winFacts₀3 block_pos3 stage_whole3 (W9 m) (W10 m)
      (fun c => Pipeline.unscopedRest (Ix := Unit) (Name := ℕ) (U := UR sig nD τ) (Lvl := ℕ) spec3 c (E9 m c))
      (fun _ _ => rfl) (fun _ => rfl) (body_obligation3 (E9 m)) (hin3 (E9 m)) (hout3 (E9 m))
      (fun c => split3 (E9 m) c (W9 m c) (fun _ => rfl))
      (fun c => join3 (E9 m) c (W10 m c) (W10_out m c).symm (fun b hb => W10_of_ne m c b hb))) ]

theorem main_run (c : Dev nD) : main (F := F) c = Pipeline.Seg.run (segs m) := (main_chain c).trans (by chain_rfl)

set_option backward.isDefEq.respectTransparency.types false in
/-- Every weakly fair execution terminates with every buffer at the last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W10 m c) ∗ ∃ r, prngReg c r))
    (hch := ⟨fun _ => .rfl, fun _ => .rfl, fun _ => .rfl, fun _ => .rfl, fun _ => .rfl, fun _ => .rfl,
      fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-- Every argument is as at the start. -/
abbrev Kept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)

theorem kept_of_all (c : Dev nD) (mem : (ℓ : Loc nD τ sig) → Buf (Elt F) ℓ)
    (h : ∀ b ∈ Pipeline.ucRefs τ sig, mem (((c : Thread nD τ)).1, b) = W10 m c b) : Kept m mem c := by
  have k : ∀ r ∈ args, mem ((c.tc : Thread nD τ).loc r) = m ((c.tc : Thread nD τ).loc r) := fun r hr =>
    (h _ (mem_uc r (args_unwritten r hr).1)).trans (W10_arg m c r hr)
  exact ⟨k _ (by decide), k _ (by decide), k _ (by decide), k _ (by decide), k _ (by decide), k _ (by decide), k _ (by decide),
    k _ (by decide), k _ (by decide), k _ (by decide), k _ (by decide), k _ (by decide), k _ (by decide)⟩

/-- The frame. -/
theorem frame_run : θ_run defs (onTc (τ := τ) (main (F := F))) ⟨m, fun _ => 0, ρ⟩ (fun r => ∀ c : Dev nD, Kept m r.2.mem c) :=
  (θ_run defs _ _).mono (fun r h c => kept_of_all m c _ (h c)) (run_all m ρ)

/-- The run with both results named. -/
theorem value_run : θ_run defs (onTc (τ := τ) (main (F := F))) ⟨m, fun _ => 0, ρ⟩ (fun r => ∀ c : Dev nD,
      r.2.mem ((c.tc : Thread nD τ).loc main_v93) = W10 m c (Proc.devRef .tc main_v93)
      ∧ r.2.mem ((c.tc : Thread nD τ).loc main_v95) = W10 m c (Proc.devRef .tc main_v95) ∧ Kept m r.2.mem c) :=
  (θ_run defs _ _).mono (fun r h c =>
    ⟨h c _ (mem_uc main_v93 (by decide)), h c _ (mem_uc main_v95 (by decide)), kept_of_all m c _ (h c)⟩) (run_all m ρ)

end Cert.KernelIdeal.Hand

end
-- ==== Proof.RefRunA.lean ====
import proofs.«400709_j481036337855_3_alg».proof.ReferenceIdeal
import proofs.«400709_j481036337855_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- The projection `x·W`, its products with the two halves of the attention vector, and their outer sum.
abbrev opsProj : List (HloOp τ sig (Elt F)) :=
  [ StableHlo.binary main_arg0 main_arg2 main_v0 (Host.dotGeneral dot_S8192x128_S128x128_S8192x128_1_0_0_1_n_n none),
    StableHlo.unary main_arg3 main_v1 (extractStridedSlice S128x1 ![0, 0] · slices_S256x1_S128x1_0_0),
    StableHlo.binary main_v0 main_v1 main_v2 (Host.dotGeneral dot_S8192x128_S128x1_S8192x1_1_0_0_1_n_n none),
    StableHlo.unary main_arg3 main_v3 (extractStridedSlice S128x1 ![128, 0] · slices_S256x1_S128x1_128_0),
    StableHlo.binary main_v0 main_v3 main_v4 (Host.dotGeneral dot_S8192x128_S128x1_S8192x1_1_0_0_1_n_n none),
    StableHlo.unary main_v4 main_v5 (transpose S1x8192 [1, 0] · transposes_S8192x1_S1x8192_1_0),
    StableHlo.unary main_v2 main_v6 (broadcastInDim S8192x8192 ![0, 1] bcast_S8192x1_S8192x8192_0_1),
    StableHlo.unary main_v5 main_v7 (broadcastInDim S8192x8192 ![0, 1] bcast_S1x8192_S8192x8192_0_1),
    StableHlo.binary main_v6 main_v7 main_v8 addf ]

-- The leaky rectifier of the outer sum, masked by the adjacency.
abbrev opsScore : List (HloOp τ sig (Elt F)) :=
  [ StableHlo.nullary main_cst (constant S_ .f32 0x3E4CCCCD#32),
    StableHlo.nullary main_call0_cst (constant S_ .f32 0x00000000#32),
    StableHlo.unary main_call0_cst main_call0_v0 (broadcastInDim S8192x8192 ![] bcast_S_S8192x8192),
    StableHlo.binary main_v8 main_call0_v0 main_call0_v1 (cmpf .oge),
    StableHlo.unary main_cst main_call0_v2 id,
    StableHlo.unary main_call0_v2 main_call0_v3 (broadcastInDim S8192x8192 ![] bcast_S_S8192x8192),
    StableHlo.binary main_call0_v3 main_v8 main_call0_v4 mulf,
    StableHlo.ternary main_call0_v1 main_v8 main_call0_v4 main_v9 select,
    StableHlo.nullary main_cst_0 (constant S_ .f32 0x00000000#32),
    StableHlo.unary main_cst_0 main_v10 (broadcastInDim S8192x8192 ![] bcast_S_S8192x8192),
    StableHlo.binary main_arg1 main_v10 main_v11 (cmpf .ogt),
    StableHlo.nullary main_cst_1 (constant S_ .f32 0xD9FFCB9E#32),
    StableHlo.unary main_cst_1 main_call1_v0 (broadcastInDim S8192x8192 ![] bcast_S_S8192x8192),
    StableHlo.ternary main_v11 main_v9 main_call1_v0 main_v12 select ]

-- The row-wise softmax of the masked scores.
abbrev opsSoftmax : List (HloOp τ sig (Elt F)) :=
  [ StableHlo.nullary main_cst_2 (constant S_ .f32 0xFF800000#32),
    StableHlo.binary main_v12 main_cst_2 main_v13 (fun x v => Host.reduce FloatOps.maximumf x v reducesTo_S8192x8192_S8192_d1 h_S_),
    StableHlo.nullary main_cst_3 (constant S_ .f32 0xFF800000#32),
    StableHlo.unary main_cst_3 main_v14 (broadcastInDim S8192 ![] bcast_S_S8192),
    StableHlo.binary main_v14 main_v13 main_v15 maximumf,
    StableHlo.unary main_v15 main_v16 (broadcastInDim S8192x1 ![0] bcast_S8192_S8192x1_0),
    StableHlo.unary main_v16 main_v17 (broadcastInDim S8192x8192 ![0, 1] bcast_S8192x1_S8192x8192_0_1),
    StableHlo.binary main_v12 main_v17 main_v18 subf,
    StableHlo.unary main_v18 main_v19 Host.exp,
    StableHlo.nullary main_cst_4 (constant S_ .f32 0x00000000#32),
    StableHlo.binary main_v19 main_cst_4 main_v20 (fun x v => Host.reduceAdd x v reducesTo_S8192x8192_S8192_d1 h_S_),
    StableHlo.unary main_v20 main_v21 (broadcastInDim S8192x1 ![0] bcast_S8192_S8192x1_0),
    StableHlo.unary main_v21 main_v22 (broadcastInDim S8192x8192 ![0, 1] bcast_S8192x1_S8192x8192_0_1),
    StableHlo.binary main_v19 main_v22 main_v23 Host.divf ]

-- `z = att·wh`, then the rectifier of `adj·(z·W1)`.
abbrev opsAgg1 : List (HloOp τ sig (Elt F)) :=
  [ StableHlo.binary main_v23 main_v0 main_v24 (Host.dotGeneral dot_S8192x8192_S8192x128_S8192x128_1_0_0_1_n_n none),
    StableHlo.binary main_v24 main_arg4 main_v25 (Host.dotGeneral dot_S8192x128_S128x256_S8192x256_1_0_0_1_n_n none),
    StableHlo.binary main_arg1 main_v25 main_v26 (Host.dotGeneral dot_S8192x8192_S8192x256_S8192x256_1_0_0_1_n_n none),
    StableHlo.nullary main_call2_cst (constant S_ .f32 0x00000000#32),
    StableHlo.unary main_call2_cst main_call2_v0 (broadcastInDim S8192x256 ![] bcast_S_S8192x256),
    StableHlo.binary main_v26 main_call2_v0 main_v27 maximumf ]

-- The first column normalisation, its first twenty-six operations.
abbrev opsBn1a : List (HloOp τ sig (Elt F)) :=
  [ StableHlo.nullary main_cst_5 (constant S_ .f32 0x00000000#32),
    StableHlo.binary main_v27 main_cst_5 main_v28 (fun x v => Host.reduceAdd x v reducesTo_S8192x256_S256_d0 h_S_),
    StableHlo.nullary main_cst_6 (constant S_ .f32 0x46000000#32),
    StableHlo.unary main_cst_6 main_v29 (broadcastInDim S256 ![] bcast_S_S256),
    StableHlo.binary main_v28 main_v29 main_v30 Host.divf,
    StableHlo.unary main_v30 main_v31 (broadcastInDim S1x256 ![1] bcast_S256_S1x256_1),
    StableHlo.unary main_v31 main_v32 (broadcastInDim S8192x256 ![0, 1] bcast_S1x256_S8192x256_0_1),
    StableHlo.binary main_v27 main_v32 main_v33 subf,
    StableHlo.binary main_v33 main_v33 main_v34 mulf,
    StableHlo.nullary main_cst_7 (constant S_ .f32 0x00000000#32),
    StableHlo.binary main_v34 main_cst_7 main_v35 (fun x v => Host.reduceAdd x v reducesTo_S8192x256_S256_d0 h_S_),
    StableHlo.nullary main_cst_8 (constant S_ .f32 0x46000000#32),
    StableHlo.unary main_cst_8 main_v36 (broadcastInDim S256 ![] bcast_S_S256),
    StableHlo.binary main_v35 main_v36 main_v37 Host.divf,
    StableHlo.unary main_v30 main_v38 (broadcastInDim S1x256 ![1] bcast_S256_S1x256_1),
    StableHlo.unary main_v38 main_v39 (broadcastInDim S8192x256 ![0, 1] bcast_S1x256_S8192x256_0_1),
    StableHlo.binary main_v27 main_v39 main_v40 subf,
    StableHlo.nullary main_cst_9 (constant S_ .f32 0x3727C5AC#32),
    StableHlo.unary main_cst_9 main_v41 (broadcastInDim S256 ![] bcast_S_S256),
    StableHlo.binary main_v37 main_v41 main_v42 addf,
    StableHlo.unary main_v42 main_v43 Host.rsqrt,
    StableHlo.unary main_v43 main_v44 (broadcastInDim S1x256 ![1] bcast_S256_S1x256_1),
    StableHlo.unary main_v44 main_v45 (broadcastInDim S8192x256 ![0, 1] bcast_S1x256_S8192x256_0_1),
    StableHlo.binary main_v40 main_v45 main_v46 mulf,
    StableHlo.unary main_arg5 main_v47 (broadcastInDim S1x256 ![1] bcast_S256_S1x256_1),
    StableHlo.unary main_v47 main_v48 (broadcastInDim S8192x256 ![0, 1] bcast_S1x256_S8192x256_0_1) ]

-- The first column normalisation, its last four operations.
abbrev opsBn1b : List (HloOp τ sig (Elt F)) :=
  [ StableHlo.binary main_v46 main_v48 main_v49 mulf,
    StableHlo.unary main_arg6 main_v50 (broadcastInDim S1x256 ![1] bcast_S256_S1x256_1),
    StableHlo.unary main_v50 main_v51 (broadcastInDim S8192x256 ![0, 1] bcast_S1x256_S8192x256_0_1),
    StableHlo.binary main_v49 main_v51 main_v52 addf ]

-- The rectifier of `adj·(bn1·W2)`.
abbrev opsAgg2 : List (HloOp τ sig (Elt F)) :=
  [ StableHlo.binary main_v52 main_arg7 main_v53 (Host.dotGeneral dot_S8192x256_S256x1433_S8192x1433_1_0_0_1_n_n none),
    StableHlo.binary main_arg1 main_v53 main_v54 (Host.dotGeneral dot_S8192x8192_S8192x1433_S8192x1433_1_0_0_1_n_n none),
    StableHlo.nullary main_call3_cst (constant S_ .f32 0x00000000#32),
    StableHlo.unary main_call3_cst main_call3_v0 (broadcastInDim S8192x1433 ![] bcast_S_S8192x1433),
    StableHlo.binary main_v54 main_call3_v0 main_v55 maximumf ]

-- The second column normalisation.
abbrev opsBn2 : List (HloOp τ sig (Elt F)) :=
  [ StableHlo.nullary main_cst_10 (constant S_ .f32 0x00000000#32),
    StableHlo.binary main_v55 main_cst_10 main_v56 (fun x v => Host.reduceAdd x v reducesTo_S8192x1433_S1433_d0 h_S_),
    StableHlo.nullary main_cst_11 (constant S_ .f32 0x46000000#32),
    StableHlo.unary main_cst_11 main_v57 (broadcastInDim S1433 ![] bcast_S_S1433),
    StableHlo.binary main_v56 main_v57 main_v58 Host.divf,
    StableHlo.unary main_v58 main_v59 (broadcastInDim S1x1433 ![1] bcast_S1433_S1x1433_1),
    StableHlo.unary main_v59 main_v60 (broadcastInDim S8192x1433 ![0, 1] bcast_S1x1433_S8192x1433_0_1),
    StableHlo.binary main_v55 main_v60 main_v61 subf,
    StableHlo.binary main_v61 main_v61 main_v62 mulf,
    StableHlo.nullary main_cst_12 (constant S_ .f32 0x00000000#32),
    StableHlo.binary main_v62 main_cst_12 main_v63 (fun x v => Host.reduceAdd x v reducesTo_S8192x1433_S1433_d0 h_S_),
    StableHlo.nullary main_cst_13 (constant S_ .f32 0x46000000#32),
    StableHlo.unary main_cst_13 main_v64 (broadcastInDim S1433 ![] bcast_S_S1433),
    StableHlo.binary main_v63 main_v64 main_v65 Host.divf,
    StableHlo.unary main_v58 main_v66 (broadcastInDim S1x1433 ![1] bcast_S1433_S1x1433_1),
    StableHlo.unary main_v66 main_v67 (broadcastInDim S8192x1433 ![0, 1] bcast_S1x1433_S8192x1433_0_1),
    StableHlo.binary main_v55 main_v67 main_v68 subf,
    StableHlo.nullary main_cst_14 (constant S_ .f32 0x3727C5AC#32),
    StableHlo.unary main_cst_14 main_v69 (broadcastInDim S1433 ![] bcast_S_S1433),
    StableHlo.binary main_v65 main_v69 main_v70 addf,
    StableHlo.unary main_v70 main_v71 Host.rsqrt,
    StableHlo.unary main_v71 main_v72 (broadcastInDim S1x1433 ![1] bcast_S1433_S1x1433_1),
    StableHlo.unary main_v72 main_v73 (broadcastInDim S8192x1433 ![0, 1] bcast_S1x1433_S8192x1433_0_1),
    StableHlo.binary main_v68 main_v73 main_v74 mulf,
    StableHlo.unary main_arg8 main_v75 (broadcastInDim S1x1433 ![1] bcast_S1433_S1x1433_1),
    StableHlo.unary main_v75 main_v76 (broadcastInDim S8192x1433 ![0, 1] bcast_S1x1433_S8192x1433_0_1),
    StableHlo.binary main_v74 main_v76 main_v77 mulf,
    StableHlo.unary main_arg9 main_v78 (broadcastInDim S1x1433 ![1] bcast_S1433_S1x1433_1),
    StableHlo.unary main_v78 main_v79 (broadcastInDim S8192x1433 ![0, 1] bcast_S1x1433_S8192x1433_0_1),
    StableHlo.binary main_v77 main_v79 main_v80 addf ]

-- The rectifier of `adj·(z·W3)`.
abbrev opsAgg3 : List (HloOp τ sig (Elt F)) :=
  [ StableHlo.binary main_v24 main_arg10 main_v81 (Host.dotGeneral dot_S8192x128_S128x256_S8192x256_1_0_0_1_n_n none),
    StableHlo.binary main_arg1 main_v81 main_v82 (Host.dotGeneral dot_S8192x8192_S8192x256_S8192x256_1_0_0_1_n_n none),
    StableHlo.nullary main_call4_cst (constant S_ .f32 0x00000000#32),
    StableHlo.unary main_call4_cst main_call4_v0 (broadcastInDim S8192x256 ![] bcast_S_S8192x256),
    StableHlo.binary main_v82 main_call4_v0 main_v83 maximumf ]

-- The third column normalisation, its first twenty operations.
abbrev opsBn3a : List (HloOp τ sig (Elt F)) :=
  [ StableHlo.nullary main_cst_15 (constant S_ .f32 0x00000000#32),
    StableHlo.binary main_v83 main_cst_15 main_v84 (fun x v => Host.reduceAdd x v reducesTo_S8192x256_S256_d0 h_S_),
    StableHlo.nullary main_cst_16 (constant S_ .f32 0x46000000#32),
    StableHlo.unary main_cst_16 main_v85 (broadcastInDim S256 ![] bcast_S_S256),
    StableHlo.binary main_v84 main_v85 main_v86 Host.divf,
    StableHlo.unary main_v86 main_v87 (broadcastInDim S1x256 ![1] bcast_S256_S1x256_1),
    StableHlo.unary main_v87 main_v88 (broadcastInDim S8192x256 ![0, 1] bcast_S1x256_S8192x256_0_1),
    StableHlo.binary main_v83 main_v88 main_v89 subf,
    StableHlo.binary main_v89 main_v89 main_v90 mulf,
    StableHlo.nullary main_cst_17 (constant S_ .f32 0x00000000#32),
    StableHlo.binary main_v90 main_cst_17 main_v91 (fun x v => Host.reduceAdd x v reducesTo_S8192x256_S256_d0 h_S_),
    StableHlo.nullary main_cst_18 (constant S_ .f32 0x46000000#32),
    StableHlo.unary main_cst_18 main_v92 (broadcastInDim S256 ![] bcast_S_S256),
    StableHlo.binary main_v91 main_v92 main_v93 Host.divf,
    StableHlo.unary main_v86 main_v94 (broadcastInDim S1x256 ![1] bcast_S256_S1x256_1),
    StableHlo.unary main_v94 main_v95 (broadcastInDim S8192x256 ![0, 1] bcast_S1x256_S8192x256_0_1),
    StableHlo.binary main_v83 main_v95 main_v96 subf,
    StableHlo.nullary main_cst_19 (constant S_ .f32 0x3727C5AC#32),
    StableHlo.unary main_cst_19 main_v97 (broadcastInDim S256 ![] bcast_S_S256),
    StableHlo.binary main_v93 main_v97 main_v98 addf ]

-- The third column normalisation, its last ten operations.
abbrev opsBn3b : List (HloOp τ sig (Elt F)) :=
  [ StableHlo.unary main_v98 main_v99 Host.rsqrt,
    StableHlo.unary main_v99 main_v100 (broadcastInDim S1x256 ![1] bcast_S256_S1x256_1),
    StableHlo.unary main_v100 main_v101 (broadcastInDim S8192x256 ![0, 1] bcast_S1x256_S8192x256_0_1),
    StableHlo.binary main_v96 main_v101 main_v102 mulf,
    StableHlo.unary main_arg11 main_v103 (broadcastInDim S1x256 ![1] bcast_S256_S1x256_1),
    StableHlo.unary main_v103 main_v104 (broadcastInDim S8192x256 ![0, 1] bcast_S1x256_S8192x256_0_1),
    StableHlo.binary main_v102 main_v104 main_v105 mulf,
    StableHlo.unary main_arg12 main_v106 (broadcastInDim S1x256 ![1] bcast_S256_S1x256_1),
    StableHlo.unary main_v106 main_v107 (broadcastInDim S8192x256 ![0, 1] bcast_S1x256_S8192x256_0_1),
    StableHlo.binary main_v105 main_v107 main_v108 addf ]

-- The decoder: the transpose and the product.
abbrev opsDecode : List (HloOp τ sig (Elt F)) :=
  [ StableHlo.unary main_v108 main_v109 (transpose S256x8192 [1, 0] · transposes_S8192x256_S256x8192_1_0),
    StableHlo.binary main_v108 main_v109 main_v110 (Host.dotGeneral dot_S8192x256_S256x8192_S8192x8192_1_0_0_1_n_n none) ]

def opsP0 : List (HloOp τ sig (Elt F)) := opsProj ++ (opsScore ++ (opsSoftmax ++ (opsAgg1 ++ opsBn1a)))
def opsP1 : List (HloOp τ sig (Elt F)) := opsBn1b ++ (opsAgg2 ++ (opsBn2 ++ (opsAgg3 ++ opsBn3a)))
def opsP2 : List (HloOp τ sig (Elt F)) := opsBn3b ++ opsDecode

-- The whole line, in order.
def ops : List (HloOp τ sig (Elt F)) := opsP0 ++ (opsP1 ++ opsP2)

theorem main_part0_eq (c : Dev nD) : main_part0 (F := F) c = seq opsP0 := rfl
theorem main_part1_eq (c : Dev nD) : main_part1 (F := F) c = seq opsP1 := rfl
theorem main_part2_eq (c : Dev nD) : main_part2 (F := F) c = seq opsP2 := rfl

theorem main_eq (c : Dev nD) : main (F := F) c = seq ops := by
  rw [ops, seq_append, seq_append, ← main_part0_eq c, ← main_part1_eq c, ← main_part2_eq c]
  rfl

theorem ops_ok : (ops : List (HloOp τ sig (Elt F))).Forall fun op => op.bufs ⊆ tcRefs τ sig ∧ op.fresh = ∅ := by
  repeat' apply And.intro
  all_goals first | exact rfl | simp only [nullary_bufs_sub, unary_bufs_sub, binary_bufs_sub, ternary_bufs_sub] | trivial

-- After @main each buffer holds the fold of the line over the initial contents.
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq (by decide) (by decide) defs main (fun _ => ops) main_eq (fun _ => ops_ok.imp fun _ h => h.1) m ρ
    fun _ op h => (List.forall_iff_forall_mem.mp ops_ok op h).2

end Cert.ReferenceIdeal.RefRun

end
-- ==== Proof.Stages.lean ====
import Idealize.ShloMosaic.PureOps

noncomputable section

namespace Cert.Stages

open Idealize.ShloMosaic

variable {F : FTy → Type} [FloatOps F]

abbrev Ten (F : FTy → Type) (s : Shape) : Type := (⟨s, .f32⟩ : BufTy).Contents (Elt F)

abbrev S0 : Shape := ⟨0, ![]⟩

abbrev Svec (c : Nat) : Shape := ⟨1, ![c]⟩

abbrev Smat (n c : Nat) : Shape := ⟨2, ![n, c]⟩

section Pointwise

variable {s : Shape} (hb : S0.BroadcastsInDim s (![] : Fin 0 → Fin s.rank))

def reluH (y : Ten F s) : Ten F s :=
  maximumf y (broadcastInDim s ![] hb (constant S0 .f32 0x00000000#32))

def leaky (e : Ten F s) : Ten F s :=
  select (cmpf .oge e (broadcastInDim s ![] hb (constant S0 .f32 0x00000000#32)))
    e
    (mulf (broadcastInDim s ![] hb (id (constant S0 .f32 0x3E4CCCCD#32))) e)

def maskedScores (adj l : Ten F s) : Ten F s :=
  select (cmpf .ogt adj (broadcastInDim s ![] hb (constant S0 .f32 0x00000000#32)))
    l
    (broadcastInDim s ![] hb (constant S0 .f32 0xD9FFCB9E#32))

end Pointwise

def outerSum {n m : Nat}
    (hl : (Smat n 1).BroadcastsInDim (Smat n m) (![0, 1] : Fin 2 → Fin (Smat n m).rank))
    (hr : (Smat 1 m).BroadcastsInDim (Smat n m) (![0, 1] : Fin 2 → Fin (Smat n m).rank))
    (f1 : Ten F (Smat n 1)) (f2 : Ten F (Smat 1 m)) : Ten F (Smat n m) :=
  addf (broadcastInDim (Smat n m) ![0, 1] hl f1) (broadcastInDim (Smat n m) ![0, 1] hr f2)

section Softmax

variable {n m : Nat}
  (hR : (Smat n m).ReducesTo [1] (Svec n)) (h0 : 0 < S0.numel)
  (hv : S0.BroadcastsInDim (Svec n) (![] : Fin 0 → Fin (Svec n).rank))
  (h1 : (Svec n).BroadcastsInDim (Smat n 1) (![0] : Fin 1 → Fin (Smat n 1).rank))
  (h2 : (Smat n 1).BroadcastsInDim (Smat n m) (![0, 1] : Fin 2 → Fin (Smat n m).rank))

def alongCols (v : Ten F (Svec n)) : Ten F (Smat n m) :=
  broadcastInDim (Smat n m) ![0, 1] h2 (broadcastInDim (Smat n 1) ![0] h1 v)

def rowMax (s : Ten F (Smat n m)) : Ten F (Svec n) :=
  maximumf (broadcastInDim (Svec n) ![] hv (constant S0 .f32 0xFF800000#32))
    (Host.reduce FloatOps.maximumf s (constant S0 .f32 0xFF800000#32) hR h0)

def expShift (s : Ten F (Smat n m)) : Ten F (Smat n m) :=
  Host.exp (subf s (alongCols h1 h2 (rowMax hR h0 hv s)))

def rowSum (x : Ten F (Smat n m)) : Ten F (Svec n) :=
  Host.reduceAdd x (constant S0 .f32 0x00000000#32) hR h0

def softmaxRow (s : Ten F (Smat n m)) : Ten F (Smat n m) :=
  Host.divf (expShift hR h0 hv h1 h2 s) (alongCols h1 h2 (rowSum hR h0 (expShift hR h0 hv h1 h2 s)))

end Softmax

section ColNorm

variable {c : Nat}
  (hR : (Smat 8192 c).ReducesTo [0] (Svec c)) (h0 : 0 < S0.numel)
  (hc : S0.BroadcastsInDim (Svec c) (![] : Fin 0 → Fin (Svec c).rank))
  (h1 : (Svec c).BroadcastsInDim (Smat 1 c) (![1] : Fin 1 → Fin (Smat 1 c).rank))
  (h2 : (Smat 1 c).BroadcastsInDim (Smat 8192 c) (![0, 1] : Fin 2 → Fin (Smat 8192 c).rank))

def alongRows (v : Ten F (Svec c)) : Ten F (Smat 8192 c) :=
  broadcastInDim (Smat 8192 c) ![0, 1] h2 (broadcastInDim (Smat 1 c) ![1] h1 v)

def colMean (h : Ten F (Smat 8192 c)) : Ten F (Svec c) :=
  Host.divf (Host.reduceAdd h (constant S0 .f32 0x00000000#32) hR h0)
    (broadcastInDim (Svec c) ![] hc (constant S0 .f32 0x46000000#32))

def colVar (h : Ten F (Smat 8192 c)) : Ten F (Svec c) :=
  Host.divf
    (Host.reduceAdd
      (mulf (subf h (alongRows h1 h2 (colMean hR h0 hc h))) (subf h (alongRows h1 h2 (colMean hR h0 hc h))))
      (constant S0 .f32 0x00000000#32) hR h0)
    (broadcastInDim (Svec c) ![] hc (constant S0 .f32 0x46000000#32))

def bnorm (g b : Ten F (Svec c)) (h : Ten F (Smat 8192 c)) : Ten F (Smat 8192 c) :=
  addf
    (mulf
      (mulf (subf h (alongRows h1 h2 (colMean hR h0 hc h)))
        (alongRows h1 h2 (Host.rsqrt (addf (colVar hR h0 hc h1 h2 h)
          (broadcastInDim (Svec c) ![] hc (constant S0 .f32 0x3727C5AC#32))))))
      (alongRows h1 h2 g))
    (alongRows h1 h2 b)

end ColNorm

def mmDims {M K N : Nat} (wf : DotDims.WF (Smat M K) (Smat K N) (Smat M N) [1] [0] [0] [1] [] []) :
    DotDims (Smat M K) (Smat K N) (Smat M N) where
  lhsContracting := [1]
  rhsContracting := [0]
  lhsNonContracting := [0]
  rhsNonContracting := [1]
  lhsBatch := []
  rhsBatch := []
  wf := wf

def mm {M K N : Nat} (wf : DotDims.WF (Smat M K) (Smat K N) (Smat M N) [1] [0] [0] [1] [] [])
    (l : Ten F (Smat M K)) (r : Ten F (Smat K N)) : Ten F (Smat M N) :=
  Host.dotGeneral (mmDims wf) none l r

end Cert.Stages

end
-- ==== Proof.RefRunB.lean ====
import proofs.«400709_j481036337855_3_alg».proof.Proof.RefRunA
import proofs.«400709_j481036337855_3_alg».proof.Proof.Stages
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Stages

variable {F : FTy → Type} [FloatOps F]

structure Args (F : FTy → Type) where
  x : Ten F S8192x128
  adj : Ten F S8192x8192
  w : Ten F S128x128
  a : Ten F S256x1
  w1 : Ten F S128x256
  g1 : Ten F S256
  b1 : Ten F S256
  w2 : Ten F S256x1433
  g2 : Ten F S1433
  b2 : Ten F S1433
  w3 : Ten F S128x256
  g3 : Ten F S256
  b3 : Ten F S256

abbrev relu256 (y : Ten F S8192x256) : Ten F S8192x256 := reluH bcast_S_S8192x256 y
abbrev relu1433 (y : Ten F S8192x1433) : Ten F S8192x1433 := reluH bcast_S_S8192x1433 y
abbrev bnorm256 (g b : Ten F S256) (h : Ten F S8192x256) : Ten F S8192x256 :=
  bnorm reducesTo_S8192x256_S256_d0 h_S_ bcast_S_S256 bcast_S256_S1x256_1 bcast_S1x256_S8192x256_0_1 g b h
abbrev bnorm1433 (g b : Ten F S1433) (h : Ten F S8192x1433) : Ten F S8192x1433 :=
  bnorm reducesTo_S8192x1433_S1433_d0 h_S_ bcast_S_S1433 bcast_S1433_S1x1433_1 bcast_S1x1433_S8192x1433_0_1 g b h

variable (A : Args F)

def wh : Ten F S8192x128 := mm dot_S8192x128_S128x128_S8192x128_1_0_0_1_n_n_wf A.x A.w
def aSrc : Ten F S128x1 := extractStridedSlice S128x1 ![0, 0] A.a slices_S256x1_S128x1_0_0
def aDst : Ten F S128x1 := extractStridedSlice S128x1 ![128, 0] A.a slices_S256x1_S128x1_128_0
def f1 : Ten F S8192x1 := mm dot_S8192x128_S128x1_S8192x1_1_0_0_1_n_n_wf (wh A) (aSrc A)
def f2 : Ten F S8192x1 := mm dot_S8192x128_S128x1_S8192x1_1_0_0_1_n_n_wf (wh A) (aDst A)
def f2t : Ten F S1x8192 := transpose S1x8192 [1, 0] (f2 A) transposes_S8192x1_S1x8192_1_0
def esum : Ten F S8192x8192 :=
  outerSum bcast_S8192x1_S8192x8192_0_1 bcast_S1x8192_S8192x8192_0_1 (f1 A) (f2t A)
def lrelu : Ten F S8192x8192 := leaky bcast_S_S8192x8192 (esum A)
def scores : Ten F S8192x8192 := maskedScores bcast_S_S8192x8192 A.adj (lrelu A)
def att : Ten F S8192x8192 :=
  softmaxRow reducesTo_S8192x8192_S8192_d1 h_S_ bcast_S_S8192 bcast_S8192_S8192x1_0 bcast_S8192x1_S8192x8192_0_1 (scores A)
def z : Ten F S8192x128 := mm dot_S8192x8192_S8192x128_S8192x128_1_0_0_1_n_n_wf (att A) (wh A)
def zw1 : Ten F S8192x256 := mm dot_S8192x128_S128x256_S8192x256_1_0_0_1_n_n_wf (z A) A.w1
def y1 : Ten F S8192x256 := mm dot_S8192x8192_S8192x256_S8192x256_1_0_0_1_n_n_wf A.adj (zw1 A)
def h1 : Ten F S8192x256 := relu256 (y1 A)
def bn1 : Ten F S8192x256 := bnorm256 A.g1 A.b1 (h1 A)
def zw2 : Ten F S8192x1433 := mm dot_S8192x256_S256x1433_S8192x1433_1_0_0_1_n_n_wf (bn1 A) A.w2
def y2 : Ten F S8192x1433 := mm dot_S8192x8192_S8192x1433_S8192x1433_1_0_0_1_n_n_wf A.adj (zw2 A)
def h2 : Ten F S8192x1433 := relu1433 (y2 A)
def resFeat : Ten F S8192x1433 := bnorm1433 A.g2 A.b2 (h2 A)
def zw3 : Ten F S8192x256 := mm dot_S8192x128_S128x256_S8192x256_1_0_0_1_n_n_wf (z A) A.w3
def y3 : Ten F S8192x256 := mm dot_S8192x8192_S8192x256_S8192x256_1_0_0_1_n_n_wf A.adj (zw3 A)
def h3 : Ten F S8192x256 := relu256 (y3 A)
def s1 : Ten F S8192x256 := bnorm256 A.g3 A.b3 (h3 A)
def s1t : Ten F S256x8192 := transpose S256x8192 [1, 0] (s1 A) transposes_S8192x256_S256x8192_1_0
def resStruct : Ten F S8192x8192 := mm dot_S8192x256_S256x8192_S8192x8192_1_0_0_1_n_n_wf (s1 A) (s1t A)

noncomputable def argsV (V : Valuation τ sig (Elt F)) : Args F where
  x := V (Proc.devRef .tc main_arg0)
  adj := V (Proc.devRef .tc main_arg1)
  w := V (Proc.devRef .tc main_arg2)
  a := V (Proc.devRef .tc main_arg3)
  w1 := V (Proc.devRef .tc main_arg4)
  g1 := V (Proc.devRef .tc main_arg5)
  b1 := V (Proc.devRef .tc main_arg6)
  w2 := V (Proc.devRef .tc main_arg7)
  g2 := V (Proc.devRef .tc main_arg8)
  b2 := V (Proc.devRef .tc main_arg9)
  w3 := V (Proc.devRef .tc main_arg10)
  g3 := V (Proc.devRef .tc main_arg11)
  b3 := V (Proc.devRef .tc main_arg12)

abbrev argRefs : List (Ref sig .tc) := [main_arg0, main_arg1, main_arg2, main_arg3, main_arg4, main_arg5, main_arg6, main_arg7, main_arg8, main_arg9, main_arg10, main_arg11, main_arg12]

-- A buffer that is not among the result buffers of a line keeps its contents.
theorem keep {l : List (HloOp τ sig (Elt F))} (W : List (Ref sig .tc))
    (hW : l.map HloOp.writes = W.map fun y => {Proc.devRef (τ := τ) .tc y}) {r : Ref sig .tc} (hr : r ∉ W)
    (V : Valuation τ sig (Elt F)) : after l V (Proc.devRef .tc r) = V (Proc.devRef .tc r) :=
  after_of_forall_not_mem l V fun op hop hb => by
    have h := List.mem_map_of_mem (f := HloOp.writes) hop
    rw [hW] at h
    obtain ⟨y, hy, he⟩ := List.mem_map.mp h
    rw [← he, Finset.mem_singleton] at hb
    exact hr (Proc.devRef_injective _ hb ▸ hy)

-- So a line none of whose results is an argument leaves the argument arrays as they were.
theorem argsV_keep {l : List (HloOp τ sig (Elt F))} (W : List (Ref sig .tc))
    (hW : l.map HloOp.writes = W.map fun y => {Proc.devRef (τ := τ) .tc y}) (hr : ∀ r ∈ argRefs, r ∉ W)
    (V : Valuation τ sig (Elt F)) : argsV (after l V) = argsV V := by
  unfold argsV
  congr 1 <;> exact keep W hW (hr _ (by decide)) V

variable (V : Valuation τ sig (Elt F))

noncomputable def val1 : Valuation τ sig (Elt F) := after (opsProj ++ (opsScore ++ (opsSoftmax ++ opsAgg1))) V
abbrev W1 : List (Ref sig .tc) :=
  [main_v0, main_v1, main_v2, main_v3, main_v4, main_v5, main_v6, main_v7,
   main_v8, main_cst, main_call0_cst, main_call0_v0, main_call0_v1, main_call0_v2, main_call0_v3, main_call0_v4,
   main_v9, main_cst_0, main_v10, main_v11, main_cst_1, main_call1_v0, main_v12, main_cst_2,
   main_v13, main_cst_3, main_v14, main_v15, main_v16, main_v17, main_v18, main_v19,
   main_cst_4, main_v20, main_v21, main_v22, main_v23, main_v24, main_v25, main_v26,
   main_call2_cst, main_call2_v0, main_v27]
theorem args1 : argsV (val1 V) = argsV V :=
  argsV_keep W1 rfl (by decide) V
theorem val1_r : val1 V (no_index (Proc.devRef .tc main_v24)) = z (argsV V)
    ∧ val1 V (no_index (Proc.devRef .tc main_v27)) = h1 (argsV V) := by
  unfold val1
  simp only [after_append, opsProj, opsScore, opsSoftmax, opsAgg1]
  after_results_simp
  exact ⟨rfl, rfl⟩

noncomputable def val2 : Valuation τ sig (Elt F) := after (opsBn1a ++ (opsBn1b ++ opsAgg2)) (val1 V)
abbrev W2 : List (Ref sig .tc) :=
  [main_cst_5, main_v28, main_cst_6, main_v29, main_v30, main_v31, main_v32, main_v33,
   main_v34, main_cst_7, main_v35, main_cst_8, main_v36, main_v37, main_v38, main_v39,
   main_v40, main_cst_9, main_v41, main_v42, main_v43, main_v44, main_v45, main_v46,
   main_v47, main_v48, main_v49, main_v50, main_v51, main_v52, main_v53, main_v54,
   main_call3_cst, main_call3_v0, main_v55]
theorem args2 : argsV (val2 V) = argsV V :=
  (argsV_keep W2 rfl (by decide) _).trans (args1 V)
theorem val2_v24 : val2 V (no_index (Proc.devRef .tc main_v24)) = z (argsV V) :=
  (keep W2 rfl (by decide) _).trans (val1_r V).1
theorem val2_v55 : val2 V (no_index (Proc.devRef .tc main_v55)) = h2 (argsV V) := by
  unfold val2
  simp only [after_append, opsBn1a, opsBn1b, opsAgg2]
  after_results_simp
  simp only [(val1_r V).2]
  rw [← args1 V]
  rfl

noncomputable def val3 : Valuation τ sig (Elt F) := after (opsBn2 ++ opsAgg3) (val2 V)
abbrev W3 : List (Ref sig .tc) :=
  [main_cst_10, main_v56, main_cst_11, main_v57, main_v58, main_v59, main_v60, main_v61,
   main_v62, main_cst_12, main_v63, main_cst_13, main_v64, main_v65, main_v66, main_v67,
   main_v68, main_cst_14, main_v69, main_v70, main_v71, main_v72, main_v73, main_v74,
   main_v75, main_v76, main_v77, main_v78, main_v79, main_v80, main_v81, main_v82,
   main_call4_cst, main_call4_v0, main_v83]
theorem args3 : argsV (val3 V) = argsV V :=
  (argsV_keep W3 rfl (by decide) _).trans (args2 V)
theorem val3_v80 : val3 V (no_index (Proc.devRef .tc main_v80)) = resFeat (argsV V) := by
  unfold val3
  simp only [after_append, opsBn2, opsAgg3]
  after_results_simp
  simp only [val2_v55]
  rw [← args2 V]
  rfl
theorem val3_v83 : val3 V (no_index (Proc.devRef .tc main_v83)) = h3 (argsV V) := by
  unfold val3
  simp only [after_append, opsBn2, opsAgg3]
  after_results_simp
  simp only [val2_v24]
  rw [← args2 V]
  rfl

noncomputable def val4 : Valuation τ sig (Elt F) := after (opsBn3a ++ (opsBn3b ++ opsDecode)) (val3 V)
abbrev W4 : List (Ref sig .tc) :=
  [main_cst_15, main_v84, main_cst_16, main_v85, main_v86, main_v87, main_v88, main_v89,
   main_v90, main_cst_17, main_v91, main_cst_18, main_v92, main_v93, main_v94, main_v95,
   main_v96, main_cst_19, main_v97, main_v98, main_v99, main_v100, main_v101, main_v102,
   main_v103, main_v104, main_v105, main_v106, main_v107, main_v108, main_v109, main_v110]
theorem args4 : argsV (val4 V) = argsV V :=
  (argsV_keep W4 rfl (by decide) _).trans (args3 V)
theorem val4_v80 : val4 V (no_index (Proc.devRef .tc main_v80)) = resFeat (argsV V) :=
  (keep W4 rfl (by decide) _).trans (val3_v80 V)
theorem val4_v110 : val4 V (no_index (Proc.devRef .tc main_v110)) = resStruct (argsV V) := by
  unfold val4
  simp only [after_append, opsBn3a, opsBn3b, opsDecode]
  after_results_simp
  simp only [val3_v83]
  rw [← args3 V]
  rfl

theorem after_ops : after ops V = val4 V := by
  simp only [ops, opsP0, opsP1, opsP2, val4, val3, val2, val1, after_append]

noncomputable def argsOf (m : (ℓ : Loc nD τ sig) → Buf (Elt F) ℓ) (c : Dev nD) : Args F where
  x := m ((c.tc : Thread nD τ).loc main_arg0)
  adj := m ((c.tc : Thread nD τ).loc main_arg1)
  w := m ((c.tc : Thread nD τ).loc main_arg2)
  a := m ((c.tc : Thread nD τ).loc main_arg3)
  w1 := m ((c.tc : Thread nD τ).loc main_arg4)
  g1 := m ((c.tc : Thread nD τ).loc main_arg5)
  b1 := m ((c.tc : Thread nD τ).loc main_arg6)
  w2 := m ((c.tc : Thread nD τ).loc main_arg7)
  g2 := m ((c.tc : Thread nD τ).loc main_arg8)
  b2 := m ((c.tc : Thread nD τ).loc main_arg9)
  w3 := m ((c.tc : Thread nD τ).loc main_arg10)
  g3 := m ((c.tc : Thread nD τ).loc main_arg11)
  b3 := m ((c.tc : Thread nD τ).loc main_arg12)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = resFeat (argsOf m c)
      ∧ r.2.mem ((c.tc : Thread nD τ).loc main_v110) = resStruct (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    have e := fun b => (h c b).trans (congrFun (after_ops _) _)
    have a := fun {β : Type} (f : Args F → β) => congrArg f (args4 (launchContents m c))
    ⟨(e main_v80).trans (val4_v80 _), (e main_v110).trans (val4_v110 _),
      (e main_arg0).trans (a Args.x),
      (e main_arg1).trans (a Args.adj),
      (e main_arg2).trans (a Args.w),
      (e main_arg3).trans (a Args.a),
      (e main_arg4).trans (a Args.w1),
      (e main_arg5).trans (a Args.g1),
      (e main_arg6).trans (a Args.b1),
      (e main_arg7).trans (a Args.w2),
      (e main_arg8).trans (a Args.g2),
      (e main_arg9).trans (a Args.b2),
      (e main_arg10).trans (a Args.w3),
      (e main_arg11).trans (a Args.g3),
      (e main_arg12).trans (a Args.b3)⟩)
    (run_after m ρ)

end Cert.ReferenceIdeal.RefRun

end
-- ==== Proof.KHostA.lean ====
import proofs.«400709_j481036337855_3_alg».proof.Proof.Gen.KernelIdeal.Regions
import proofs.«400709_j481036337855_3_alg».proof.Proof.Stages

noncomputable section

namespace Cert.KernelIdeal.Hand

open Idealize.ShloMosaic Idealize.ShloMosaic.TcCoe Idealize.SL.Sem
open Cert.KernelIdeal Cert.KernelIdeal.Gen Cert.Stages

variable {F : FTy → Type} [FloatOps F]

/-- The thirteen argument arrays. -/
structure KArgs (F : FTy → Type) where
  x : Ten F S8192x128
  adj : Ten F S8192x8192
  w : Ten F S128x128
  a : Ten F S256x1
  w1 : Ten F S128x256
  g1 : Ten F S256
  b1 : Ten F S256
  w2 : Ten F S256x1433
  g2 : Ten F S1433
  b2 : Ten F S1433
  w3 : Ten F S128x256
  g3 : Ten F S256
  b3 : Ten F S256

/-- The column normalisation at 256 and at 1433 columns. -/
abbrev bnorm256 (g b : Ten F S256) (h : Ten F S8192x256) : Ten F S8192x256 :=
  bnorm reducesTo_S8192x256_S256_d0 h_S_ bcast_S_S256 bcast_S256_S1x256_1 bcast_S1x256_S8192x256_0_1 g b h
abbrev bnorm1433 (g b : Ten F S1433) (h : Ten F S8192x1433) : Ten F S8192x1433 :=
  bnorm reducesTo_S8192x1433_S1433_d0 h_S_ bcast_S_S1433 bcast_S1433_S1x1433_1 bcast_S1x1433_S8192x1433_0_1 g b h

def kWh (x : Ten F S8192x128) (w : Ten F S128x128) : Ten F S8192x128 :=
  mm dot_S8192x128_S128x128_S8192x128_1_0_0_1_n_n_wf x w
def kASrc (a : Ten F S256x1) : Ten F S128x1 := extractStridedSlice S128x1 ![0, 0] a slices_S256x1_S128x1_0_0
def kADst (a : Ten F S256x1) : Ten F S128x1 := extractStridedSlice S128x1 ![128, 0] a slices_S256x1_S128x1_128_0
def kF1 (x : Ten F S8192x128) (w : Ten F S128x128) (a : Ten F S256x1) : Ten F S8192x1 :=
  mm dot_S8192x128_S128x1_S8192x1_1_0_0_1_n_n_wf (kWh x w) (kASrc a)
def kF2 (x : Ten F S8192x128) (w : Ten F S128x128) (a : Ten F S256x1) : Ten F S8192x1 :=
  mm dot_S8192x128_S128x1_S8192x1_1_0_0_1_n_n_wf (kWh x w) (kADst a)
/-- The column `f2` as a row. -/
def kF2t (x : Ten F S8192x128) (w : Ten F S128x128) (a : Ten F S256x1) : Ten F S1x8192 :=
  shapeCast S1x8192 (kF2 x w a) shapeCasts_S8192x1_S1x8192

def kZW (Z : Ten F S8192x128) (w : Ten F S128x256) : Ten F S8192x256 :=
  mm dot_S8192x128_S128x256_S8192x256_1_0_0_1_n_n_wf Z w
def kCat (P Q : Ten F S8192x256) : Ten F S8192x512 :=
  concatenate S8192x512 1 [⟨S8192x256, P⟩, ⟨S8192x256, Q⟩] concatenates_S8192x256_S8192x256_S8192x512_d1
/-- `z·w1` and `z·w3` side by side, rounded to bf16. -/
def kXw1 (Z : Ten F S8192x128) (w1 w3 : Ten F S128x256) : (⟨S8192x512, .bf16⟩ : BufTy).Contents (Elt F) :=
  truncf .bf16 (kCat (kZW Z w1) (kZW Z w3)) bitsLt_bf16_f32

def kLo (Y : Ten F S8192x512) : Ten F S8192x256 := extractStridedSlice S8192x256 ![0, 0] Y slices_S8192x512_S8192x256_0_0
def kHi (Y : Ten F S8192x512) : Ten F S8192x256 := extractStridedSlice S8192x256 ![0, 256] Y slices_S8192x512_S8192x256_0_256
def kBn1 (g1 b1 : Ten F S256) (Y : Ten F S8192x512) : Ten F S8192x256 := bnorm256 g1 b1 (kLo Y)
def kBn3 (g3 b3 : Ten F S256) (Y : Ten F S8192x512) : Ten F S8192x256 := bnorm256 g3 b3 (kHi Y)
def kZW2 (S : Ten F S8192x256) (w2 : Ten F S256x1433) : Ten F S8192x1433 :=
  mm dot_S8192x256_S256x1433_S8192x1433_1_0_0_1_n_n_wf S w2
def kPadVal : Ten F S_ := sitofp .f32 (constantI S_ 32 0#32)
def kPadWith (P : Ten F S8192x1433) (v : Ten F S_) : Ten F S8192x1536 :=
  pad S8192x1536 ![0, 0] ![0, 103] ![0, 0] P v pads_S8192x1433_S8192x1536_000_01030 h_S_
def kPad (P : Ten F S8192x1433) : Ten F S8192x1536 := kPadWith P kPadVal
/-- The second-layer product with 103 zero columns appended, rounded to bf16. -/
def kXw2 (g1 b1 : Ten F S256) (w2 : Ten F S256x1433) (Y : Ten F S8192x512) : (⟨S8192x1536, .bf16⟩ : BufTy).Contents (Elt F) :=
  truncf .bf16 (kPad (kZW2 (kBn1 g1 b1 Y) w2)) bitsLt_bf16_f32

def kCut (Y : Ten F S8192x1536) : Ten F S8192x1433 := extractStridedSlice S8192x1433 ![0, 0] Y slices_S8192x1536_S8192x1433_0_0
def kFeat (g2 b2 : Ten F S1433) (Y : Ten F S8192x1536) : Ten F S8192x1433 := bnorm1433 g2 b2 (kCut Y)
def kS1b (S : Ten F S8192x256) : (⟨S8192x256, .bf16⟩ : BufTy).Contents (Elt F) := truncf .bf16 S bitsLt_bf16_f32

end Cert.KernelIdeal.Hand

end
-- ==== Proof.KHost0.lean ====
import proofs.«400709_j481036337855_3_alg».proof.Proof.KHostA

noncomputable section

namespace Cert.KernelIdeal.Hand

open Idealize.ShloMosaic Idealize.ShloMosaic.TcCoe Idealize.SL.Sem
open Cert.KernelIdeal Cert.KernelIdeal.Gen Cert.Stages

variable {F : FTy → Type} [FloatOps F] (W : Valuation τ sig (Elt F))

theorem hostOps0_v0 : StableHlo.after hostOps0 W (Proc.devRef .tc main_v0)
    = kWh (W (Proc.devRef .tc main_arg0)) (W (Proc.devRef .tc main_arg2)) := by
  after_results
  rfl
theorem hostOps0_v2 : StableHlo.after hostOps0 W (Proc.devRef .tc main_v2)
    = kF1 (W (Proc.devRef .tc main_arg0)) (W (Proc.devRef .tc main_arg2)) (W (Proc.devRef .tc main_arg3)) := by
  after_results
  rfl
theorem hostOps0_v5 : StableHlo.after hostOps0 W (Proc.devRef .tc main_v5)
    = kF2t (W (Proc.devRef .tc main_arg0)) (W (Proc.devRef .tc main_arg2)) (W (Proc.devRef .tc main_arg3)) := by
  after_results
  rfl

theorem hostOps1_v10 : StableHlo.after hostOps1 W (Proc.devRef .tc main_v10)
    = kXw1 (W (Proc.devRef .tc main_v6_0)) (W (Proc.devRef .tc main_arg4)) (W (Proc.devRef .tc main_arg10)) := by
  after_results
  rfl

end Cert.KernelIdeal.Hand

end
-- ==== Proof.KHost2.lean ====
import proofs.«400709_j481036337855_3_alg».proof.Proof.KHostA

noncomputable section

namespace Cert.KernelIdeal.Hand

open Idealize.ShloMosaic Idealize.ShloMosaic.TcCoe Idealize.SL.Sem
open Cert.KernelIdeal Cert.KernelIdeal.Gen Cert.Stages

variable {F : FTy → Type} [FloatOps F] (W : Valuation τ sig (Elt F))

-- The stretch's operations compose to the column normalisation of a half of the launch's result.
theorem hostOps2_v63 :
    StableHlo.after hostOps2 W (Proc.devRef .tc main_v63)
      = kBn3 (W (Proc.devRef .tc main_arg11)) (W (Proc.devRef .tc main_arg12)) (W (Proc.devRef .tc main_v11)) := by
  after_results_simp
  rfl

-- The next launch's right operand: the first half normalised, times the second layer's weight, padded, rounded to bf16.
theorem hostOps2_v66 :
    StableHlo.after hostOps2_2 (StableHlo.after hostOps2_1 (StableHlo.after hostOps2 W)) (Proc.devRef .tc main_v66)
      = kXw2 (W (Proc.devRef .tc main_arg5)) (W (Proc.devRef .tc main_arg6)) (W (Proc.devRef .tc main_arg7)) (W (Proc.devRef .tc main_v11)) := by
  after_results_simp
  rfl

end Cert.KernelIdeal.Hand

end
-- ==== Proof.KHost3.lean ====
import proofs.«400709_j481036337855_3_alg».proof.Proof.KHostA

noncomputable section

namespace Cert.KernelIdeal.Hand

open Idealize.ShloMosaic Idealize.ShloMosaic.TcCoe Idealize.SL.Sem
open Cert.KernelIdeal Cert.KernelIdeal.Gen Cert.Stages

variable {F : FTy → Type} [FloatOps F] (W : Valuation τ sig (Elt F))

-- The stretch's operations compose to the column normalisation of the launch's result cut to 1433 columns.
theorem hostOps3_v93 :
    StableHlo.after hostOps3 W (Proc.devRef .tc main_v93)
      = kFeat (W (Proc.devRef .tc main_arg8)) (W (Proc.devRef .tc main_arg9)) (W (Proc.devRef .tc main_v67)) := by
  after_results_simp
  rfl

theorem hostOps3_v94 :
    StableHlo.after hostOps3 W (Proc.devRef .tc main_v94) = kS1b (W (Proc.devRef .tc main_v63)) := by
  after_results_simp
  rfl

end Cert.KernelIdeal.Hand

end
-- ==== Proof.KHost.lean ====
import proofs.«400709_j481036337855_3_alg».proof.Proof.Run
import proofs.«400709_j481036337855_3_alg».proof.Proof.KHost0
import proofs.«400709_j481036337855_3_alg».proof.Proof.KHost2
import proofs.«400709_j481036337855_3_alg».proof.Proof.KHost3

noncomputable section

namespace Cert.KernelIdeal.Hand

open Idealize.ShloMosaic Idealize.ShloMosaic.TcCoe Idealize.SL.Sem
open Cert.KernelIdeal Cert.KernelIdeal.Gen Cert.Stages

variable {F : FTy → Type} [FloatOps F] (m : (ℓ : Loc nD τ sig) → Buf (Elt F) ℓ) (c : Dev nD)

/-- The given contents of the array `r`. -/
abbrev kArg (r : Ref sig .tc) := m ((c : Thread nD τ).loc r)

noncomputable def kArgsOf : KArgs F where
  x := kArg m c main_arg0
  adj := kArg m c main_arg1
  w := kArg m c main_arg2
  a := kArg m c main_arg3
  w1 := kArg m c main_arg4
  g1 := kArg m c main_arg5
  b1 := kArg m c main_arg6
  w2 := kArg m c main_arg7
  g2 := kArg m c main_arg8
  b2 := kArg m c main_arg9
  w3 := kArg m c main_arg10
  g3 := kArg m c main_arg11
  b3 := kArg m c main_arg12

/-- The side conditions under which the array `r` is unchanged up to the last stretch. -/
structure Untouched (r : Ref sig .tc) : Prop where
  h0 : r ∉ hostOps0_W := by decide
  s0 : ∀ w, Pipeline.arrRef spec0 w ≠ r := by decide
  h1 : r ∉ hostOps1_W := by decide
  s1 : ∀ w, Pipeline.arrRef spec1 w ≠ r := by decide
  h2 : r ∉ hostOps2_W := by decide
  h21 : r ∉ hostOps2_1_W := by decide
  h22 : r ∉ hostOps2_2_W := by decide
  s2 : ∀ w, Pipeline.arrRef spec2 w ≠ r := by decide

theorem W7_of (r : Ref sig .tc) (h21 : r ∉ hostOps2_1_W) (h22 : r ∉ hostOps2_2_W) :
    W7 m c (Proc.devRef .tc r) = W5 m c (Proc.devRef .tc r) :=
  (StableHlo.after_of_writes_sub hostOps2_2 _ hostOps2_2_writes h22).trans
    (StableHlo.after_of_writes_sub hostOps2_1 _ hostOps2_1_writes h21)

theorem W2_kept (r : Ref sig .tc) (h : Untouched r) : W2 m c (Proc.devRef .tc r) = kArg m c r :=
  (W2_of_ne m c r h.s0).trans (StableHlo.after_of_writes_sub hostOps0 (W0 m c) hostOps0_writes h.h0)
theorem W4_kept (r : Ref sig .tc) (h : Untouched r) : W4 m c (Proc.devRef .tc r) = kArg m c r :=
  (W4_of_ne m c r h.s1).trans
    ((StableHlo.after_of_writes_sub hostOps1 _ hostOps1_writes h.h1).trans (W2_kept m c r h))
theorem W8_kept (r : Ref sig .tc) (h : Untouched r) : W8 m c (Proc.devRef .tc r) = kArg m c r :=
  (W8_of_ne m c r h.s2).trans ((W7_of m c r h.h21 h.h22).trans
    ((StableHlo.after_of_writes_sub hostOps2 _ hostOps2_writes h.h2).trans (W4_kept m c r h)))

abbrev kZ : Ten F S8192x128 := W2 m c (Proc.devRef .tc main_v6_0)
abbrev kY11 : Ten F S8192x512 := W4 m c (Proc.devRef .tc main_v11)
abbrev kY67 : Ten F S8192x1536 := W8 m c (Proc.devRef .tc main_v67)

theorem W1_v0 : W1 m c (Proc.devRef .tc main_v0) = kWh (kArgsOf m c).x (kArgsOf m c).w :=
  hostOps0_v0 (W0 m c)
theorem W1_v2 : W1 m c (Proc.devRef .tc main_v2) = kF1 (kArgsOf m c).x (kArgsOf m c).w (kArgsOf m c).a :=
  hostOps0_v2 (W0 m c)
theorem W1_v5 : W1 m c (Proc.devRef .tc main_v5) = kF2t (kArgsOf m c).x (kArgsOf m c).w (kArgsOf m c).a :=
  hostOps0_v5 (W0 m c)
theorem W1_arg1 : W1 m c (Proc.devRef .tc main_arg1) = (kArgsOf m c).adj :=
  StableHlo.after_of_writes_sub hostOps0 (W0 m c) hostOps0_writes (by decide)

theorem W3_v10 : W3 m c (Proc.devRef .tc main_v10) = kXw1 (kZ m c) (kArgsOf m c).w1 (kArgsOf m c).w3 := by
  unfold W3
  rw [hostOps1_v10, W2_kept m c main_arg4 {}, W2_kept m c main_arg10 {}]
  rfl
theorem W3_v6_1 : W3 m c (Proc.devRef .tc main_v6_1) = W2 m c (Proc.devRef .tc main_v6_1) :=
  StableHlo.after_of_writes_sub hostOps1 _ hostOps1_writes (by decide)

theorem W7_v66 :
    W7 m c (Proc.devRef .tc main_v66) = kXw2 (kArgsOf m c).g1 (kArgsOf m c).b1 (kArgsOf m c).w2 (kY11 m c) := by
  unfold W7 W6 W5
  rw [hostOps2_v66, W4_kept m c main_arg5 {}, W4_kept m c main_arg6 {}, W4_kept m c main_arg7 {}]
  rfl
-- The narrow adjacency is the same array at both convolution launches.
theorem W7_v6_1 : W7 m c (Proc.devRef .tc main_v6_1) = W2 m c (Proc.devRef .tc main_v6_1) :=
  (W7_of m c main_v6_1 (by decide) (by decide)).trans
    ((StableHlo.after_of_writes_sub hostOps2 _ hostOps2_writes (by decide)).trans
      (((W4_arr m c 0).trans (((dat1 (E3 m) c).arrAt_in 0 rfl _).trans (A_eq1 (E3 m) c 0))).trans (W3_v6_1 m c)))

theorem W9_v94 :
    W9 m c (Proc.devRef .tc main_v94) = kS1b (kBn3 (kArgsOf m c).g3 (kArgsOf m c).b3 (kY11 m c)) := by
  unfold W9
  rw [hostOps3_v94, W8_of_ne m c main_v63 (by decide), W7_of m c main_v63 (by decide) (by decide)]
  unfold W5
  rw [hostOps2_v63, W4_kept m c main_arg11 {}, W4_kept m c main_arg12 {}]
  rfl
theorem W10_v93 :
    W10 m c (Proc.devRef .tc main_v93) = kFeat (kArgsOf m c).g2 (kArgsOf m c).b2 (kY67 m c) := by
  rw [W10_of_ne m c main_v93 (by decide)]
  unfold W9
  rw [hostOps3_v93, W8_kept m c main_arg8 {}, W8_kept m c main_arg9 {}]
  rfl

end Cert.KernelIdeal.Hand

end
-- ==== Proof.Val0Spec.lean ====
import Idealize.ShloMosaic.PureOps.Ideal
import Idealize.ShloMosaic.Lib.ValueIdx

noncomputable section

namespace Cert.KernelIdeal.Hand

open Idealize.ShloMosaic Idealize.ShloMosaic.ValueIdx
open scoped BigOperators

/-- x for x ≥ 0 and c·x below zero, c the float nearest one fifth. -/
def leaky (x : EReal) : EReal := if 0 ≤ x then x else Ideal.ofBits .f32 0x3E4CCCCD#32 * x

/-- The rectified sum u + v where a is positive, one large negative finite constant elsewhere. -/
def score (u v a : EReal) : EReal :=
  if 0 < a then leaky (u + v) else Ideal.ofBits .f32 0xD9FFCB9E#32

/-- The masked score of row r against column k. -/
def scoreAt (f1 : (⟨2, ![8192, 1]⟩ : Shape).Idx → EReal) (f2t : (⟨2, ![1, 8192]⟩ : Shape).Idx → EReal)
    (adj : (⟨2, ![8192, 8192]⟩ : Shape).Idx → EReal) (r k : Fin 8192) : EReal :=
  score (f1 (ix2 r (0 : Fin 1))) (f2t (ix2 (0 : Fin 1) k)) (adj (ix2 r k))

/-- Entry (r, d) of the attention output: the softmax of row r's scores, taken at the shift c' r, applied to column d of Wh. -/
def attnAt (f1 : (⟨2, ![8192, 1]⟩ : Shape).Idx → EReal) (f2t : (⟨2, ![1, 8192]⟩ : Shape).Idx → EReal)
    (Wh : (⟨2, ![8192, 128]⟩ : Shape).Idx → EReal) (adj : (⟨2, ![8192, 8192]⟩ : Shape).Idx → EReal)
    (c' : Fin 8192 → EReal) (r : Fin 8192) (d : Fin 128) : EReal :=
  ∑ k : Fin 8192, Ideal.div (Ideal.exp (scoreAt f1 f2t adj r k - c' r))
      (∑ k' : Fin 8192, Ideal.exp (scoreAt f1 f2t adj r k' - c' r)) * Wh (ix2 k d)

end Cert.KernelIdeal.Hand

end
-- ==== Proof.LibReal.lean ====
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

def IsReal (x : EReal) : Prop := ∃ r : ℝ, x = (r : EReal)

def IsPosReal (x : EReal) : Prop := ∃ r : ℝ, 0 < r ∧ x = (r : EReal)

theorem isReal_zero : IsReal 0 := ⟨0, EReal.coe_zero.symm⟩

theorem isReal_one : IsReal 1 := ⟨1, EReal.coe_one.symm⟩

theorem IsReal.ne_top {x : EReal} (hx : IsReal x) : x ≠ ⊤ := by
  obtain ⟨r, rfl⟩ := hx; exact EReal.coe_ne_top r

theorem IsPosReal.isReal {x : EReal} (hx : IsPosReal x) : IsReal x := by
  obtain ⟨r, _, rfl⟩ := hx; exact ⟨r, rfl⟩

theorem IsPosReal.pos {x : EReal} (hx : IsPosReal x) : 0 < x := by
  obtain ⟨r, hr, rfl⟩ := hx; exact EReal.coe_pos.mpr hr

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

-- The coercion is additive.
theorem coe_finset_sum {ι : Type*} (s : Finset ι) (f : ι → ℝ) :
    ((∑ i ∈ s, f i : ℝ) : EReal) = ∑ i ∈ s, (f i : EReal) :=
  map_sum (⟨⟨((↑) : ℝ → EReal), EReal.coe_zero⟩, EReal.coe_add⟩ : ℝ →+ EReal) f s

theorem IsReal.sum {ι : Type*} (s : Finset ι) (f : ι → EReal) (h : ∀ i ∈ s, IsReal (f i)) :
    IsReal (∑ i ∈ s, f i) :=
  Finset.sum_induction f IsReal (fun _ _ => IsReal.add) isReal_zero h

theorem IsReal.sum_univ {ι : Type*} [Fintype ι] (f : ι → EReal) (h : ∀ i, IsReal (f i)) :
    IsReal (∑ i, f i) :=
  IsReal.sum Finset.univ f fun i _ => h i

theorem IsPosReal.sum {ι : Type*} (s : Finset ι) (hs : s.Nonempty) (f : ι → EReal)
    (h : ∀ i ∈ s, IsPosReal (f i)) : IsPosReal (∑ i ∈ s, f i) :=
  Finset.sum_induction_nonempty f IsPosReal (fun _ _ => IsPosReal.add) hs h

theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

theorem div_coe_coe (a : ℝ) {b : ℝ} (hb : b ≠ 0) :
    Ideal.div (a : EReal) (b : EReal) = ((a / b : ℝ) : EReal) := by
  rw [Ideal.div_coe hb, ← EReal.coe_mul, mul_one_div]

theorem IsReal.div {x y : EReal} (hx : IsReal x) (hy : IsReal y) (hy0 : y ≠ 0) : IsReal (Ideal.div x y) := by
  obtain ⟨a, rfl⟩ := hx; obtain ⟨b, rfl⟩ := hy
  exact ⟨a / b, div_coe_coe a (EReal.coe_ne_zero.mp hy0)⟩

theorem IsReal.div_pos {x y : EReal} (hx : IsReal x) (hy : IsPosReal y) : IsReal (Ideal.div x y) :=
  hx.div hy.isReal hy.pos.ne'

theorem IsReal.exp_pos {x : EReal} (hx : IsReal x) : IsPosReal (Ideal.exp x) := by
  obtain ⟨a, rfl⟩ := hx; exact ⟨Real.exp a, Real.exp_pos a, Ideal.exp_coe a⟩

theorem IsReal.exp {x : EReal} (hx : IsReal x) : IsReal (Ideal.exp x) := hx.exp_pos.isReal

theorem IsReal.max {x y : EReal} (hx : IsReal x) (hy : IsReal y) : IsReal (max x y) := by
  rcases max_choice x y with h | h <;> rw [h] <;> assumption

-- The maximum over a nonempty finite family is one of its members.
theorem IsReal.fold_max {ι : Type*} (s : Finset ι) (hs : s.Nonempty) (f : ι → EReal)
    (h : ∀ i ∈ s, IsReal (f i)) : IsReal (s.fold Max.max ⊥ f) := by
  obtain ⟨i, hi, e⟩ := Finset.exists_mem_eq_sup s hs f
  exact (show s.fold Max.max ⊥ f = f i from e) ▸ h i hi

theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

theorem isReal_ofBits_zero : IsReal (Ideal.ofBits .f32 0x00000000#32) :=
  ⟨0, by rw [Ideal.ofBits_zero_f32, EReal.coe_zero]⟩

theorem ofBits_pos_inf : Ideal.ofBits .f32 0x7F800000#32 = ⊤ := by
  simp [Ideal.ofBits, Ideal.ieee]

theorem ofBits_neg_inf : Ideal.ofBits .f32 0xFF800000#32 = ⊥ := by
  simp [Ideal.ofBits, Ideal.ieee]

end Cert.LibReal

end
-- ==== Proof.MathBlocks.lean ====
import Mathlib.Algebra.BigOperators.Group.Finset.Basic
import Mathlib.Algebra.BigOperators.Fin
import Mathlib.Data.Fintype.BigOperators
import Mathlib.Logic.Equiv.Fin.Basic

namespace Cert.Math

open scoped BigOperators

variable {M : Type*} [AddCommMonoid M]

-- One more block appends its members to the range.
theorem sum_range_blocks (nb bs : ℕ) (f : ℕ → M) :
    ∑ b ∈ Finset.range nb, ∑ k ∈ Finset.range bs, f (b * bs + k) = ∑ i ∈ Finset.range (nb * bs), f i := by
  induction nb with
  | zero => rw [Nat.zero_mul, Finset.range_zero, Finset.sum_empty, Finset.sum_empty]
  | succ n ih => rw [Finset.sum_range_succ, ih, Nat.succ_mul, Finset.sum_range_add]

-- Both sides are the sum over the pairs (block, member), carried along the bijection.
theorem sum_range_blocks_equiv {nb : ℕ} {J ι : Type*} [Fintype J] [Fintype ι] (e : Fin nb × J ≃ ι)
    (F : ℕ → J → M) (G : ι → M) (h : ∀ (b : Fin nb) (j : J), F (b : ℕ) j = G (e (b, j))) :
    ∑ b ∈ Finset.range nb, ∑ j, F b j = ∑ i, G i := by
  rw [← Fin.sum_univ_eq_sum_range (fun b => ∑ j, F b j) nb,
    ← Fintype.sum_prod_type' (fun (b : Fin nb) (j : J) => F (b : ℕ) j)]
  exact Fintype.sum_equiv e _ _ fun p => h p.1 p.2

end Cert.Math
-- ==== Proof.MathSoftmax.lean ====
import Idealize.ShloMosaic.PureOps.Ideal
import Mathlib.Data.EReal.Basic
import Mathlib.Data.EReal.Operations
import Mathlib.Algebra.BigOperators.Group.Finset.Basic
import Mathlib.Algebra.BigOperators.Ring.Finset
import Mathlib.Algebra.BigOperators.Field
import Mathlib.Algebra.Order.BigOperators.Group.Finset
import Mathlib.Analysis.SpecialFunctions.Exp
import proofs.«400709_j481036337855_3_alg».proof.Proof.LibReal
import proofs.«400709_j481036337855_3_alg».proof.Proof.MathBlocks

noncomputable section

namespace Cert.Math

open Idealize.ShloMosaic
open Cert.LibReal
open scoped BigOperators

-- exp (m - m') * exp (x - m) = exp (x - m') over the reals.
theorem rescale_term {x y m m' : EReal} (hx : IsReal x) (hy : IsReal y) (hm : IsReal m) (hm' : IsReal m') :
    Ideal.exp (m - m') * (Ideal.exp (x - m) * y) = Ideal.exp (x - m') * y := by
  obtain ⟨x, rfl⟩ := hx; obtain ⟨y, rfl⟩ := hy; obtain ⟨m, rfl⟩ := hm; obtain ⟨m', rfl⟩ := hm'
  simp only [← EReal.coe_sub, Ideal.exp_coe, ← EReal.coe_mul]
  rw [← mul_assoc, ← Real.exp_add, sub_add_sub_cancel']

-- Multiplication by a nonnegative finite real is additive on the extended reals.
theorem mul_sum_of_isPosReal {k : EReal} (hk : IsPosReal k) {ι : Type*} (S : Finset ι) (f : ι → EReal) :
    k * ∑ i ∈ S, f i = ∑ i ∈ S, k * f i :=
  map_sum (⟨⟨(k * ·), mul_zero k⟩, EReal.left_distrib_of_nonneg_of_ne_top hk.pos.le hk.isReal.ne_top⟩ :
    EReal →+ EReal) f S

section Quotient

variable {ι : Type*} [Fintype ι]

theorem isReal_softmax_sum [Nonempty ι] (s w : ι → EReal) {c : EReal} (hs : ∀ i, IsReal (s i))
    (hw : ∀ i, IsReal (w i)) (hc : IsReal c) :
    IsReal (∑ i, Ideal.div (Ideal.exp (s i - c)) (∑ k, Ideal.exp (s k - c)) * w i) :=
  IsReal.sum_univ _ fun i =>
    (((hs i).sub hc).exp.div_pos (IsPosReal.sum_univ _ fun k => ((hs k).sub hc).exp_pos)).mul (hw i)

-- Dividing out exp c from numerator and denominator shows the quotient does not depend on the shift.
theorem real_quotient (x y : ι → ℝ) (c : ℝ) :
    (∑ i, Real.exp (x i - c) * y i) / ∑ i, Real.exp (x i - c)
      = (∑ i, Real.exp (x i) * y i) / ∑ i, Real.exp (x i) := by
  simp only [Real.exp_sub, div_mul_eq_mul_div, ← Finset.sum_div]
  exact div_div_div_cancel_right₀ (Real.exp_ne_zero c) _ _

-- Every quantity is the image of a real, so the identity is the real one.
theorem softmax_quotient [Nonempty ι] (s w : ι → EReal) {c c' : EReal} (hs : ∀ i, IsReal (s i))
    (hw : ∀ i, IsReal (w i)) (hc : IsReal c) (hc' : IsReal c') :
    Ideal.div (∑ i, Ideal.exp (s i - c) * w i) (∑ i, Ideal.exp (s i - c))
      = ∑ i, Ideal.div (Ideal.exp (s i - c')) (∑ k, Ideal.exp (s k - c')) * w i := by
  choose x hx using hs
  choose y hy using hw
  obtain ⟨c, rfl⟩ := hc
  obtain ⟨c', rfl⟩ := hc'
  have hpos : ∀ d : ℝ, (∑ i, Real.exp (x i - d)) ≠ 0 := fun d =>
    (Finset.sum_pos (fun i _ => Real.exp_pos _) Finset.univ_nonempty).ne'
  simp only [hx, hy, ← EReal.coe_sub, Ideal.exp_coe, ← EReal.coe_mul, ← coe_finset_sum, div_coe_coe _ (hpos _)]
  rw [real_quotient x y c, ← real_quotient x y c']
  simp only [div_mul_eq_mul_div, ← Finset.sum_div]

end Quotient

section Online

variable {J : Type*} [Fintype J]

def DenInv (s : ℕ → J → EReal) (n : ℕ) (m l : EReal) : Prop :=
  (n = 0 ∧ m = ⊥ ∧ l = 0) ∨ (IsReal m ∧ l = ∑ b ∈ Finset.range n, ∑ j, Ideal.exp (s b j - m))

def NumInv (s w : ℕ → J → EReal) (n : ℕ) (m a : EReal) : Prop :=
  (n = 0 ∧ m = ⊥ ∧ a = 0) ∨ (IsReal m ∧ a = ∑ b ∈ Finset.range n, ∑ j, Ideal.exp (s b j - m) * w b j)

theorem DenInv.zero (s : ℕ → J → EReal) : DenInv s 0 ⊥ 0 := Or.inl ⟨rfl, rfl, rfl⟩

theorem NumInv.zero (s w : ℕ → J → EReal) : NumInv s w 0 ⊥ 0 := Or.inl ⟨rfl, rfl, rfl⟩

-- The denominator is the numerator of unit values.
theorem denInv_iff {s : ℕ → J → EReal} {n : ℕ} {m l : EReal} :
    DenInv s n m l ↔ NumInv s (fun _ _ => 1) n m l := by
  simp only [DenInv, NumInv, mul_one]

-- Moving the shift rescales what is gathered term by term; from the shift -∞ nothing is gathered yet.
theorem NumInv.step {s w : ℕ → J → EReal} {n : ℕ} {m a m' : EReal} (h : NumInv s w n m a)
    (hs : ∀ b, b ≤ n → ∀ j, IsReal (s b j)) (hw : ∀ b, b ≤ n → ∀ j, IsReal (w b j)) (hm' : IsReal m') :
    NumInv s w (n + 1) m' (Ideal.exp (m - m') * a + ∑ j, Ideal.exp (s n j - m') * w n j) := by
  refine Or.inr ⟨hm', ?_⟩
  rw [Finset.sum_range_succ]
  refine congrArg (· + _) ?_
  rcases h with ⟨rfl, rfl, rfl⟩ | ⟨hm, rfl⟩
  · rw [mul_zero, Finset.range_zero, Finset.sum_empty]
  · simp only [mul_sum_of_isPosReal (hm.sub hm').exp_pos]
    exact Finset.sum_congr rfl fun b hb => Finset.sum_congr rfl fun j _ =>
      rescale_term (hs b (Finset.mem_range.mp hb).le j) (hw b (Finset.mem_range.mp hb).le j) hm hm'

theorem DenInv.step {s : ℕ → J → EReal} {n : ℕ} {m l m' : EReal} (h : DenInv s n m l)
    (hs : ∀ b, b ≤ n → ∀ j, IsReal (s b j)) (hm' : IsReal m') :
    DenInv s (n + 1) m' (Ideal.exp (m - m') * l + ∑ j, Ideal.exp (s n j - m')) :=
  denInv_iff.mpr (by simpa only [mul_one] using (denInv_iff.mp h).step hs (fun _ _ _ => isReal_one) hm')

theorem DenInv.shift_eq_bot_or_isReal {s : ℕ → J → EReal} {n : ℕ} {m l : EReal} (h : DenInv s n m l) :
    m = ⊥ ∨ IsReal m :=
  h.imp (·.2.1) (·.1)

variable {ι : Type*} [Fintype ι]

-- After the last block both sums run over the whole row, read along the bijection.
theorem online_quotient [Nonempty ι] {nb : ℕ} (e : Fin nb × J ≃ ι) {s w : ℕ → J → EReal}
    {t u : ι → EReal} {m l a c' : EReal} (hd : DenInv s nb m l) (hn : NumInv s w nb m a) (hnb : 0 < nb)
    (hst : ∀ (b : Fin nb) (j : J), s (b : ℕ) j = t (e (b, j)))
    (hwu : ∀ (b : Fin nb) (j : J), w (b : ℕ) j = u (e (b, j)))
    (ht : ∀ i, IsReal (t i)) (hu : ∀ i, IsReal (u i)) (hc' : IsReal c') :
    Ideal.div a l = ∑ i, Ideal.div (Ideal.exp (t i - c')) (∑ k, Ideal.exp (t k - c')) * u i := by
  rcases hn with ⟨h0, _⟩ | ⟨hm, rfl⟩
  · exact absurd h0 hnb.ne'
  rcases hd with ⟨h0, _⟩ | ⟨_, rfl⟩
  · exact absurd h0 hnb.ne'
  rw [sum_range_blocks_equiv e (fun b j => Ideal.exp (s b j - m) * w b j) (fun i => Ideal.exp (t i - m) * u i)
      (fun b j => by rw [hst b j, hwu b j]),
    sum_range_blocks_equiv e (fun b j => Ideal.exp (s b j - m)) (fun i => Ideal.exp (t i - m))
      (fun b j => by rw [hst b j])]
  exact softmax_quotient t u ht hu hm hc'

end Online

end Cert.Math

end
-- ==== Proof.Val0a.lean ====
import proofs.«400709_j481036337855_3_alg».proof.Proof.Common
import proofs.«400709_j481036337855_3_alg».proof.Proof.Val0Spec
import proofs.«400709_j481036337855_3_alg».proof.Proof.MathSoftmax
import Idealize.ShloMosaic.Lib.Pipeline.Value

noncomputable section

namespace Cert.KernelIdeal.Hand

open Idealize.ShloMosaic Idealize.ShloMosaic.ValueIdx
open Cert.KernelIdeal Cert.KernelIdeal.Gen
open Cert.LibReal
open scoped BigOperators

/-- A column spread along n columns has, at (p, j), the column's entry p. -/
theorem bcast_col_apply {α : Type} {n : ℕ} (v : S1024x1.Idx → α) (h : S1024x1.Broadcasts ⟨2, ![1024, n]⟩) (p : Fin 1024)
    (j : Fin n) : broadcastTo _ v h (ix2 p j) = v (ix2 p (0 : Fin 1)) :=
  broadcastTo_apply v h _ _ fun a => match a with | ⟨0, _⟩ => rfl | ⟨1, _⟩ => rfl

/-- A row spread along 1024 rows has, at (p, j), the row's entry j. -/
theorem bcast_row_apply {α : Type} (v : S1x1024.Idx → α) (h : S1x1024.Broadcasts S1024x1024) (p j : Fin 1024) :
    broadcastTo S1024x1024 v h (ix2 p j) = v (ix2 (0 : Fin 1) j) :=
  broadcastTo_apply v h _ _ fun a => match a with | ⟨0, _⟩ => rfl | ⟨1, _⟩ => rfl

/-- A 32-bit float whose exponent field is not all ones is a finite real. -/
theorem isReal_ofBits_f32 (b : BitVec 32) (h : (b.extractLsb' 23 8).toNat ≠ 2 ^ 8 - 1) :
    IsReal (Ideal.ofBits .f32 b) := by
  show IsReal (Ideal.ieee 8 23 b)
  unfold Ideal.ieee
  simp only []
  rw [if_neg h]
  split <;> exact ⟨_, rfl⟩

/-- A masked score of finite reals is finite: the slope and the fill constant are finite. -/
theorem isReal_score {u v a : EReal} (hu : IsReal u) (hv : IsReal v) : IsReal (score u v a) := by
  unfold score leaky
  split
  · split
    · exact hu.add hv
    · exact (isReal_ofBits_f32 _ (by decide)).mul (hu.add hv)
  · exact isReal_ofBits_f32 _ (by decide)

/-- The masked scores of the block at (p, j), by cases on the two comparisons. -/
theorem pay10_apply (x0 : Vec Ideal S1024x1 .f32) (x1 : Vec Ideal S1x1024 .f32) (x3 : Vec Ideal S1024x1024 .f32)
    (p j : Fin 1024) :
    k0_pay10 x0 x1 x3 (ix2 p j) = score (x0 (ix2 p (0 : Fin 1))) (x1 (ix2 (0 : Fin 1) j)) (x3 (ix2 p j)) := by
  unfold k0_pay10
  simp only [shapeCast_self]
  simp only [select_apply, cmpf_apply, broadcast_apply, addf_apply, mulf_apply, bcast_col_apply, bcast_row_apply,
    Ideal.cmpf_def, Ideal.ofBits_def, Ideal.ofBits_zero_f32]
  unfold score leaky Ideal.cmp Scalar.select
  dsimp only
  by_cases h : 0 < x3 (ix2 p j)
  · by_cases h2 : 0 ≤ x0 (ix2 p (0 : Fin 1)) + x1 (ix2 (0 : Fin 1) j) <;> simp [h, h2]
  · simp [h]

/-- A vector of 1024 entries reshaped to a column has entry p at (p, 0). -/
theorem col_apply {α : Type} (x : S1024.Idx → α) (hc : S1024.ShapeCasts S1024x1) (p : Fin 1024) :
    shapeCast S1024x1 x hc (ix2 p (0 : Fin 1)) = x (ix1 p) :=
  shapeCast_apply _ hc _ _ (by rw [Shape.rowMajor_val_one, Shape.rowMajor_val_two]; show p.val = p.val * 1 + 0; omega)
/-- Position j along the reduced axis of row p is the index (p, j). -/
theorem lift_apply (h : S1024x1024.Reduces [1] S1024) (p j : Fin 1024) : h.lift (ix1 p) j = ix2 p j :=
  funext fun a => Fin.ext (match a with | ⟨0, _⟩ => rfl | ⟨1, _⟩ => rfl)

/-- The new maximum of row p: the old one against the largest score of the row in this block. -/
theorem pay11_apply (x0 : Vec Ideal S1024x1 .f32) (x1 : Vec Ideal S1x1024 .f32) (x3 : Vec Ideal S1024x1024 .f32)
    (m : Vec Ideal S1024x1 .f32) (p : Fin 1024) :
    k0_pay11 x0 x1 x3 m (ix2 p (0 : Fin 1))
      = max (m (ix2 p (0 : Fin 1))) ((Finset.univ : Finset (Fin 1024)).fold max ⊥
          fun j => k0_pay10 x0 x1 x3 (ix2 p j)) := by
  unfold k0_pay11
  refine congrArg (max (m (ix2 p (0 : Fin 1)))) ((col_apply _ _ p).trans
    ((Ideal.multiReduction_maximumf_single _ _ _ _ _ (ix1 p)).trans ?_))
  show Finset.fold max (Ideal.ofBits .f32 0xFF800000#32) _ Finset.univ = _
  rw [ofBits_neg_inf]
  exact congrArg (fun f => Finset.fold max ⊥ f Finset.univ)
    (funext fun j => congrArg _ (lift_apply _ p j))

/-- The exponentials of the block: exp (score − new maximum of the row). -/
theorem pay13_apply (x0 : Vec Ideal S1024x1 .f32) (x1 : Vec Ideal S1x1024 .f32) (x3 : Vec Ideal S1024x1024 .f32)
    (m : Vec Ideal S1024x1 .f32) (p j : Fin 1024) :
    k0_pay13 x0 x1 x3 m (ix2 p j)
      = Ideal.exp (k0_pay10 x0 x1 x3 (ix2 p j) - k0_pay11 x0 x1 x3 m (ix2 p (0 : Fin 1))) := by
  unfold k0_pay13
  show Ideal.exp (_ - broadcastTo S1024x1024 (k0_pay11 x0 x1 x3 m) _ (ix2 p j)) = _
  rw [bcast_col_apply]

/-- The new denominator of row p: the rescaled old one plus the sum of the row's exponentials. -/
theorem pay1_apply (v32 : FVec Ideal S1024x1024 .f32) (v34 : FVec Ideal S1024x1 .f32) (p : Fin 1024) :
    k0_pay1 v32 v34 (ix2 p (0 : Fin 1)) = v34 (ix2 p (0 : Fin 1)) + ∑ j : Fin 1024, v32 (ix2 p j) := by
  unfold k0_pay1
  simp only [shapeCast_self]
  refine congrArg (v34 (ix2 p (0 : Fin 1)) + ·) ((col_apply _ _ p).trans
    ((Ideal.multiReduction_add_single _ _ _ _ _ (ix1 p)).trans ?_))
  exact Finset.sum_congr rfl fun j _ => congrArg v32 (lift_apply _ p j)

/-- The quotient at (p, d): numerator over the row's denominator. -/
theorem pay4_apply (v57 : Vec Ideal S1024x128 .f32) (v58 : Vec Ideal S1024x1 .f32) (p : Fin 1024) (d : Fin 128) :
    k0_pay4 v57 v58 (ix2 p d) = Ideal.div (v57 (ix2 p d)) (v58 (ix2 p (0 : Fin 1))) := by
  unfold k0_pay4
  refine (divf_apply _ _ _).trans ?_
  rw [bcast_col_apply]

/-- The three initial values: −∞, 0 and 0. -/
theorem pay5_apply (i : S1024x1.Idx) : k0_pay5 (F := Ideal) i = ⊥ := by
  unfold k0_pay5
  simp only [shapeCast_self]
  exact ofBits_neg_inf
theorem pay6_apply (i : S1024x1.Idx) : k0_pay6 (F := Ideal) i = 0 := by
  unfold k0_pay6
  simp only [shapeCast_self]
  exact Ideal.ofBits_zero_f32
theorem pay7_apply (i : S1024x128.Idx) : k0_pay7 (F := Ideal) i = 0 := by
  unfold k0_pay7
  simp only [shapeCast_self]
  exact Ideal.ofBits_zero_f32

/-- An index of a rank-2 array is determined by its two coordinates. -/
theorem idx2_ext {n0 n1 : ℕ} {i j : (⟨2, ![n0, n1]⟩ : Shape).Idx} (h0 : (i 0).val = (j 0).val)
    (h1 : (i 1).val = (j 1).val) : i = j :=
  (eq_ix2 i).trans ((congrArg₂ ix2 (Fin.ext h0) (Fin.ext h1)).trans (eq_ix2 j).symm)

/-- The new numerator at (p, d): the rescaled old one plus row p of the exponentials against column d of the features. -/
theorem pay2_apply (v9 : FVec Ideal S1024x128 .f32) (v29 : FVec Ideal S1024x1 .f32) (v32 : FVec Ideal S1024x1024 .f32)
    (v44 : Vec Ideal S1024x128 .f32) (p : Fin 1024) (d : Fin 128) :
    k0_pay2 v9 v29 v32 v44 (ix2 p d)
      = v29 (ix2 p (0 : Fin 1)) * v44 (ix2 p d) + ∑ j : Fin 1024, v32 (ix2 p j) * v9 (ix2 j d) := by
  unfold k0_pay2
  simp only [shapeCast_self]
  refine (addf_apply _ _ _).trans (congrArg₂ (· + ·) ?_ ?_)
  · refine (mulf_apply _ _ _).trans ?_
    rw [bcast_col_apply]
  · refine (Ideal.matmul_constant_zero_apply _ none v32 v9 (ix2 p d)).trans ?_
    exact Fintype.sum_equiv (contrEquiv1 _ 1024 rfl rfl) _ _ fun k =>
      congrArg₂ (v32 · * v9 ·) (idx2_ext rfl rfl) (idx2_ext rfl rfl)

open Cert.Math in

/-- One step of the online softmax at row p, feature d: the running quantities over n blocks become those over n + 1. -/
theorem step_row (x0 : Vec Ideal S1024x1 .f32) (x1 : Vec Ideal S1x1024 .f32) (x2 : Vec Ideal S1024x128 .f32)
    (x3 : Vec Ideal S1024x1024 .f32) (m l : Vec Ideal S1024x1 .f32) (a : Vec Ideal S1024x128 .f32)
    (s w : ℕ → Fin 1024 → EReal) (n : ℕ) (p : Fin 1024) (d : Fin 128)
    (hsn : ∀ j, s n j = score (x0 (ix2 p (0 : Fin 1))) (x1 (ix2 (0 : Fin 1) j)) (x3 (ix2 p j)))
    (hwn : ∀ j, w n j = x2 (ix2 j d))
    (hs : ∀ b, b ≤ n → ∀ j, IsReal (s b j)) (hw : ∀ b, b ≤ n → ∀ j, IsReal (w b j))
    (hD : DenInv s n (m (ix2 p (0 : Fin 1))) (l (ix2 p (0 : Fin 1))))
    (hN : NumInv s w n (m (ix2 p (0 : Fin 1))) (a (ix2 p d))) :
    DenInv s (n + 1) (k0_pay3 (k0_pay11 x0 x1 x3 m) (ix2 p (0 : Fin 1)))
        (k0_pay1 (k0_pay13 x0 x1 x3 m) (k0_pay14 x0 x1 x3 m l) (ix2 p (0 : Fin 1)))
      ∧ NumInv s w (n + 1) (k0_pay3 (k0_pay11 x0 x1 x3 m) (ix2 p (0 : Fin 1)))
        (k0_pay2 (k0_pay8 x2) (k0_pay12 x0 x1 x3 m) (k0_pay13 x0 x1 x3 m) a (ix2 p d)) := by
  have hs' : ∀ j, k0_pay10 x0 x1 x3 (ix2 p j) = s n j := fun j => (pay10_apply x0 x1 x3 p j).trans (hsn j).symm
  have hm' : IsReal (k0_pay11 x0 x1 x3 m (ix2 p (0 : Fin 1))) := by
    rw [pay11_apply, funext hs']
    have hfold : IsReal ((Finset.univ : Finset (Fin 1024)).fold max ⊥ (s n)) :=
      IsReal.fold_max Finset.univ Finset.univ_nonempty _ fun j _ => hs n le_rfl j
    rcases hD.shift_eq_bot_or_isReal with hb | hr
    · rw [hb, max_eq_right bot_le]; exact hfold
    · exact hr.max hfold
  have e3 : k0_pay3 (k0_pay11 x0 x1 x3 m) = k0_pay11 x0 x1 x3 m := by
    unfold k0_pay3; simp only [shapeCast_self]
  rw [e3, pay1_apply, pay2_apply]
  simp only [pay13_apply, hs', ← hwn, k0_pay8, shapeCast_self]
  exact ⟨hD.step hs hm', hN.step hs hw hm'⟩

end Cert.KernelIdeal.Hand

end
-- ==== Proof.Val0Arr.lean ====
import proofs.«400709_j481036337855_3_alg».proof.KernelIdeal
import Idealize.ShloMosaic.PureOps.Ideal

noncomputable section

namespace Cert.KernelIdeal.Hand

open Idealize.ShloMosaic Idealize.ShloMosaic.TcCoe
open Idealize.SL Idealize.SL.Sem
open Cert.KernelIdeal

variable (V : (c : Dev nD) → (b : Ref sig .tc) → Buf (Elt Ideal) ((c : Thread nD τ).loc b))

/-- The four input arrays at their literal types: f1 [8192,1], f2ᵀ [1,8192], Wh [8192,128], adj [8192,8192]. -/
abbrev f1A (c : Dev nD) : S8192x1.Idx → EReal := V c main_v2
abbrev f2A (c : Dev nD) : S1x8192.Idx → EReal := V c main_v5
abbrev whA (c : Dev nD) : S8192x128.Idx → EReal := V c main_v0
abbrev adjA (c : Dev nD) : S8192x8192.Idx → EReal := V c main_arg1

end Cert.KernelIdeal.Hand

end
-- ==== Proof.Val0b.lean ====
import proofs.«400709_j481036337855_3_alg».proof.Proof.Reg0
import proofs.«400709_j481036337855_3_alg».proof.Proof.Val0a
import proofs.«400709_j481036337855_3_alg».proof.Proof.Val0Arr

noncomputable section

namespace Cert.KernelIdeal.Hand

open Idealize.ShloMosaic Idealize.ShloMosaic.TcCoe Idealize.ShloMosaic.ValueIdx
open Cert.KernelIdeal Cert.KernelIdeal.Gen
open Cert.LibReal
open scoped BigOperators

variable (V : (c : Dev nD) → (b : Ref sig .tc) → Buf (Elt Ideal) ((c : Thread nD τ).loc b))

/-- Entry p of block q of an axis of 8192 entries cut into eight blocks of 1024. -/
def rowOf (q : Fin 8) (p : Fin 1024) : Fin 8192 := ⟨q.val * 1024 + p.val, by omega⟩

abbrev b0 (c : Dev nD) (t : Fin cfg0.N) : Vec Ideal S1024x1 .f32 := iblk0 V c 0 t
abbrev b1 (c : Dev nD) (t : Fin cfg0.N) : Vec Ideal S1x1024 .f32 := iblk0 V c 1 t
abbrev b2 (c : Dev nD) (t : Fin cfg0.N) : Vec Ideal S1024x128 .f32 := iblk0 V c 2 t
abbrev b3 (c : Dev nD) (t : Fin cfg0.N) : Vec Ideal S1024x1024 .f32 := iblk0 V c 3 t

/-- By enumeration of the grid's points. -/
theorem idx_facts0 : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val % 8 ∧ win0_2.index t (1 : Fin 2) = 0
    ∧ win0_3.index t (0 : Fin 2) = t.val / 8 ∧ win0_3.index t (1 : Fin 2) = t.val % 8
    ∧ win0_4.index t (0 : Fin 2) = t.val / 8 ∧ win0_4.index t (1 : Fin 2) = 0 :=
  (by decide +kernel : ∀ t : Fin grid0.N, _)

/-- At row block q and column block b the four blocks hold rows q·1024 + p and columns b·1024 + j of their arrays. -/
theorem blk_apply (c : Dev nD) (t : Fin cfg0.N) (q b : Fin 8) (hq : t.val / 8 = q.val) (hb : t.val % 8 = b.val)
    (p j : Fin 1024) (d : Fin 128) :
    b0 V c t (ix2 p (0 : Fin 1)) = f1A V c (ix2 (rowOf q p) (0 : Fin 1))
      ∧ b1 V c t (ix2 (0 : Fin 1) j) = f2A V c (ix2 (0 : Fin 1) (rowOf b j))
      ∧ b2 V c t (ix2 j d) = whA V c (ix2 (rowOf b j) d)
      ∧ b3 V c t (ix2 p j) = adjA V c (ix2 (rowOf q p) (rowOf b j)) := by
  obtain ⟨e00, e01, e10, e11, e20, e21, e30, e31, -⟩ := idx_facts0 t
  exact ⟨congrArg (V c main_v2) (idx2_ext
      (by show win0_0.index t (0 : Fin 2) * 1024 + 1 * p.val = q.val * 1024 + p.val; omega)
      (by show win0_0.index t (1 : Fin 2) * 1 + 1 * 0 = 0; omega)),
    congrArg (V c main_v5) (idx2_ext (by show win0_1.index t (0 : Fin 2) * 1 + 1 * 0 = 0; omega)
      (by show win0_1.index t (1 : Fin 2) * 1024 + 1 * j.val = b.val * 1024 + j.val; omega)),
    congrArg (V c main_v0) (idx2_ext
      (by show win0_2.index t (0 : Fin 2) * 1024 + 1 * j.val = b.val * 1024 + j.val; omega)
      (by show win0_2.index t (1 : Fin 2) * 128 + 1 * d.val = d.val; omega)),
    congrArg (V c main_arg1) (idx2_ext
      (by show win0_3.index t (0 : Fin 2) * 1024 + 1 * p.val = q.val * 1024 + p.val; omega)
      (by show win0_3.index t (1 : Fin 2) * 1024 + 1 * j.val = b.val * 1024 + j.val; omega))⟩

/-- The scores of row r, block by block (zero past the eight blocks). -/
def sBlk (c : Dev nD) (r : Fin 8192) (b : ℕ) (j : Fin 1024) : EReal :=
  if h : b < 8 then scoreAt (f1A V c) (f2A V c) (adjA V c) r (rowOf ⟨b, h⟩ j) else 0

/-- Column d of the features, block by block (zero past the eight blocks). -/
def wBlk (c : Dev nD) (d : Fin 128) (b : ℕ) (j : Fin 1024) : EReal :=
  if h : b < 8 then whA V c (ix2 (rowOf ⟨b, h⟩ j) d) else 0

open Cert.Math in

/-- One step at row block q and column block b: the running quantities over b blocks become those over b + 1. -/
theorem step_at (c : Dev nD) (h1 : ∀ i, IsReal (f1A V c i)) (h2 : ∀ i, IsReal (f2A V c i)) (h3 : ∀ i, IsReal (whA V c i))
    (t : Fin cfg0.N) (q b : Fin 8) (hq : t.val / 8 = q.val) (hb : t.val % 8 = b.val) (p : Fin 1024) (d : Fin 128)
    (st st' : St0 Ideal) (e : st' = step0 (b0 V c t) (b1 V c t) (b2 V c t) (b3 V c t) st)
    (hD : DenInv (sBlk V c (rowOf q p)) b.val (st.1 (ix2 p (0 : Fin 1))) (st.2.1 (ix2 p (0 : Fin 1))))
    (hN : NumInv (sBlk V c (rowOf q p)) (wBlk V c d) b.val (st.1 (ix2 p (0 : Fin 1))) (st.2.2 (ix2 p d))) :
    DenInv (sBlk V c (rowOf q p)) (b.val + 1) (st'.1 (ix2 p (0 : Fin 1))) (st'.2.1 (ix2 p (0 : Fin 1)))
      ∧ NumInv (sBlk V c (rowOf q p)) (wBlk V c d) (b.val + 1) (st'.1 (ix2 p (0 : Fin 1))) (st'.2.2 (ix2 p d)) := by
  subst e
  unfold step0
  dsimp only
  refine step_row (b0 V c t) (b1 V c t) (b2 V c t) (b3 V c t) st.1 st.2.1 st.2.2 (sBlk V c (rowOf q p)) (wBlk V c d)
    b.val p d (fun j => ?_) (fun j => ?_) (fun b' _ j => ?_) (fun b' _ j => ?_) hD hN
  · obtain ⟨e0, e1, -, e3⟩ := blk_apply V c t q b hq hb p j d
    unfold sBlk
    rw [dif_pos b.isLt, e0, e1, e3]
    rfl
  · unfold wBlk
    rw [dif_pos b.isLt, (blk_apply V c t q b hq hb p j d).2.2.1]
  · unfold sBlk
    split
    · exact isReal_score (h1 _) (h2 _)
    · exact isReal_zero
  · unfold wBlk
    split
    · exact h3 _
    · exact isReal_zero

/-- Equal positions give equal states. -/
theorem st0_congr (c : Dev nD) {n n' : ℕ} (e : n = n') (h : n < cfg0.N) (h' : n' < cfg0.N) :
    st0 V c n h = st0 V c n' h' := by
  subst e; rfl

open Cert.Math in

/-- By induction on the column block b: the state holds the running quantities of row q·1024 + p over b + 1 blocks. -/
theorem st0_inv (c : Dev nD) (h1 : ∀ i, IsReal (f1A V c i)) (h2 : ∀ i, IsReal (f2A V c i)) (h3 : ∀ i, IsReal (whA V c i))
    (q : Fin 8) (p : Fin 1024) (d : Fin 128) (b : ℕ) :
    ∀ (hb : b < 8) (ht : q.val * 8 + b < cfg0.N),
      DenInv (sBlk V c (rowOf q p)) (b + 1) ((st0 V c (q.val * 8 + b) ht).1 (ix2 p (0 : Fin 1)))
          ((st0 V c (q.val * 8 + b) ht).2.1 (ix2 p (0 : Fin 1)))
        ∧ NumInv (sBlk V c (rowOf q p)) (wBlk V c d) (b + 1) ((st0 V c (q.val * 8 + b) ht).1 (ix2 p (0 : Fin 1)))
          ((st0 V c (q.val * 8 + b) ht).2.2 (ix2 p d)) := by
  induction b with
  | zero =>
    intro hb ht
    refine step_at V c h1 h2 h3 ⟨_, ht⟩ q ⟨0, hb⟩ (by show (q.val * 8 + 0) / 8 = q.val; omega)
      (by show (q.val * 8 + 0) % 8 = 0; omega) p d init0 _
      (st0_first V c ⟨_, ht⟩ (by show (q.val * 8 + 0) % 8 = 0; omega)) ?_ ?_
    · show DenInv _ 0 (k0_pay5 (F := Ideal) (ix2 p (0 : Fin 1))) (k0_pay6 (F := Ideal) (ix2 p (0 : Fin 1)))
      rw [pay5_apply, pay6_apply]
      exact DenInv.zero _
    · show NumInv _ _ 0 (k0_pay5 (F := Ideal) (ix2 p (0 : Fin 1))) (k0_pay7 (F := Ideal) (ix2 p d))
      rw [pay5_apply, pay7_apply]
      exact NumInv.zero _ _
  | succ b ih =>
    intro hb ht
    have ht' : q.val * 8 + b < cfg0.N := lt_trans (by omega) ht
    obtain ⟨hD, hN⟩ := ih (by omega) ht'
    exact step_at V c h1 h2 h3 ⟨_, ht⟩ q ⟨b + 1, hb⟩ (by show (q.val * 8 + (b + 1)) / 8 = q.val; omega)
      (by show (q.val * 8 + (b + 1)) % 8 = b + 1; omega) p d (st0 V c (q.val * 8 + b) ht') _
      (st0_next V c ⟨_, ht⟩ (by show (q.val * 8 + (b + 1)) % 8 ≠ 0; omega)) hD hN

end Cert.KernelIdeal.Hand

end
-- ==== Proof.Val0.lean ====
import proofs.«400709_j481036337855_3_alg».proof.Proof.Val0b

noncomputable section

namespace Cert.KernelIdeal.Hand

open Idealize.ShloMosaic Idealize.ShloMosaic.TcCoe Idealize.ShloMosaic.ValueIdx
open Cert.KernelIdeal Cert.KernelIdeal.Gen
open Cert.LibReal
open scoped BigOperators

variable (V : (c : Dev nD) → (b : Ref sig .tc) → Buf (Elt Ideal) ((c : Thread nD τ).loc b))

/-- A column of a row as (column block, column within the block). -/
def blkEquiv : Fin 8 × Fin 1024 ≃ Fin 8192 where
  toFun x := rowOf x.1 x.2
  invFun i := (⟨i.val / 1024, by omega⟩, ⟨i.val % 1024, Nat.mod_lt _ (by decide)⟩)
  left_inv x := Prod.ext (Fin.ext (by show (x.1.val * 1024 + x.2.val) / 1024 = x.1.val; omega))
    (Fin.ext (by show (x.1.val * 1024 + x.2.val) % 1024 = x.2.val; omega))
  right_inv i := Fin.ext (by show i.val / 1024 * 1024 + i.val % 1024 = i.val; omega)

open Cert.Math in

/-- After the last column block of row block q the quotient at (p, d) is the softmax-weighted sum of row q·1024 + p, at any real shift. -/
theorem out0_4_apply (c : Dev nD) (h1 : ∀ i, IsReal (f1A V c i)) (h2 : ∀ i, IsReal (f2A V c i))
    (h3 : ∀ i, IsReal (whA V c i)) (c' : Fin 8192 → EReal) (hc' : ∀ r, IsReal (c' r))
    (t : Fin cfg0.N) (h7 : t.val % 8 = 7) (q : Fin 8) (hq : t.val / 8 = q.val) (p : Fin 1024) (d : Fin 128) :
    out0_4 V c t (ix2 p d) = attnAt (f1A V c) (f2A V c) (whA V c) (adjA V c) c' (rowOf q p) d := by
  have ht : q.val * 8 + 7 < cfg0.N := by have := t.isLt; omega
  unfold out0_4
  rw [pay4_apply, st0_congr V c (show t.val = q.val * 8 + 7 by omega) _ ht]
  obtain ⟨hD, hN⟩ := st0_inv V c h1 h2 h3 q p d 7 (by decide) ht
  haveI : Nonempty (Fin 8192) := ⟨0⟩
  unfold attnAt
  exact online_quotient blkEquiv (t := scoreAt (f1A V c) (f2A V c) (adjA V c) (rowOf q p))
    (u := fun k => whA V c (ix2 k d)) hD hN (by decide)
    (fun b j => by unfold sBlk; rw [dif_pos b.isLt]; rfl)
    (fun b j => by unfold wBlk; rw [dif_pos b.isLt]; rfl)
    (fun i => isReal_score (h1 _) (h2 _)) (fun i => h3 _) (hc' _)

/-- The attention output as one function of the four input arrays and the shifts. -/
abbrev G4 (c : Dev nD) (c' : Fin 8192 → EReal) : S8192x128.Idx → EReal :=
  fun i => attnAt (f1A V c) (f2A V c) (whA V c) (adjA V c) c' (i 0) (i 1)

/-- Row p of the block of row block t / 8 is row (t / 8)·1024 + p of the array. -/
theorem flushed4_eq (c : Dev nD) (h1 : ∀ i, IsReal (f1A V c i)) (h2 : ∀ i, IsReal (f2A V c i))
    (h3 : ∀ i, IsReal (whA V c i)) (c' : Fin 8192 → EReal) (hc' : ∀ r, IsReal (c' r))
    (t : Fin cfg0.N) (hf : (cfg0.win 4).flush t = true) :
    (dat0 (F := Ideal) V c).flushed 4 t = ((cfg0.win 4).blk t).view.read (Elt Ideal) (G4 V c c') := by
  have h7 : t.val % 8 = 7 := (flush0_4 t).mp hf
  have hN : cfg0.N = 64 := N_0
  have hq8 : t.val / 8 < 8 := by have := t.isLt; omega
  obtain ⟨-, -, -, -, -, -, -, -, e40, e41⟩ := idx_facts0 t
  funext y
  show out0_4 V c t y = G4 V c c' (((cfg0.win 4).blk t).view.emb y)
  refine (congrArg (out0_4 V c t) (eq_ix2 y)).trans
    ((out0_4_apply V c h1 h2 h3 c' hc' t h7 ⟨t.val / 8, hq8⟩ rfl (y 0) (y 1)).trans ?_)
  exact congrArg₂ (attnAt _ _ _ _ c')
    (Fin.ext (by show t.val / 8 * 1024 + (y 0).val = win0_4.index t (0 : Fin 2) * 1024 + 1 * (y 0).val; omega))
    (Fin.ext (by show (y 1).val = win0_4.index t (1 : Fin 2) * 128 + 1 * (y 1).val; omega))

/-- The row blocks tile the array: row r lies in row block r / 1024. -/
theorem cover4 (i : S8192x128.Idx) :
    ∃ t : Fin cfg0.N, (cfg0.win 4).flush t = true ∧ i ∈ ((cfg0.win 4).blk t).view.set := by
  have hi0 : (i 0).val < 8192 := idx2_lt0 i
  obtain ⟨t, ht⟩ : ∃ t : Fin cfg0.N, t.val = (i 0).val / 1024 * 8 + 7 :=
    ⟨⟨_, by have : cfg0.N = 64 := N_0; omega⟩, rfl⟩
  obtain ⟨-, -, -, -, -, -, -, -, e40, e41⟩ := idx_facts0 t
  refine ⟨t, (flush0_4 t).mpr (by omega), ?_⟩
  rw [idx2_ext (i := i) (j := ((cfg0.win 4).blk t).view.emb (ix2 (⟨(i 0).val % 1024, Nat.mod_lt _ (by decide)⟩ : Fin 1024) (i 1)))
    (by show _ = win0_4.index t (0 : Fin 2) * 1024 + 1 * ((i 0).val % 1024); omega)
    (by show _ = win0_4.index t (1 : Fin 2) * 128 + 1 * (i 1).val; omega)]
  exact View.emb_mem_set _ _

/-- Over real inputs the output array holds, at (r, d), the softmax-weighted sum of the features, the softmax at any real shift. -/
theorem final0_4 (c : Dev nD)
    (h1 : ∀ i, IsReal (f1A V c i)) (h2 : ∀ i, IsReal (f2A V c i)) (h3 : ∀ i, IsReal (whA V c i))
    (h4 : ∀ i, IsReal (adjA V c i)) (c' : Fin 8192 → EReal) (hc' : ∀ r, IsReal (c' r)) :
    (dat0 (F := Ideal) V c).arrAt 4 cfg0.N
      = fun i : S8192x128.Idx => attnAt (f1A V c) (f2A V c) (whA V c) (adjA V c) c' (i 0) (i 1) :=
  (dat0 (F := Ideal) V c).arrAt_eq_of_cover 4 (G4 V c c') (fun t hf => flushed4_eq V c h1 h2 h3 c' hc' t hf) cover4

end Cert.KernelIdeal.Hand

end
-- ==== Proof.Val0c.lean ====
import proofs.«400709_j481036337855_3_alg».proof.Proof.Reg0
import Idealize.ShloMosaic.Lib.ValueIdx

noncomputable section

namespace Cert.KernelIdeal.Hand

open Idealize.ShloMosaic Idealize.ShloMosaic.TcCoe Idealize.ShloMosaic.ValueIdx
open Cert.KernelIdeal Cert.KernelIdeal.Gen

/-- An index of a rank-2 array is determined by its two coordinates. -/
theorem ext_adj {n0 n1 : ℕ} {i j : (⟨2, ![n0, n1]⟩ : Shape).Idx} (h0 : (i 0).val = (j 0).val)
    (h1 : (i 1).val = (j 1).val) : i = j :=
  (eq_ix2 i).trans ((congrArg₂ ix2 (Fin.ext h0) (Fin.ext h1)).trans (eq_ix2 j).symm)

variable (V : (c : Dev nD) → (b : Ref sig .tc) → Buf (Elt Ideal) ((c : Thread nD τ).loc b))

abbrev adjArr0 (c : Dev nD) : S8192x8192.Idx → EReal := V c main_arg1

/-- By enumeration of the grid's points. -/
theorem idx_adj : ∀ t : Fin cfg0.N,
    win0_3.index t (0 : Fin 2) = win0_5.index t (0 : Fin 2) ∧ win0_3.index t (1 : Fin 2) = win0_5.index t (1 : Fin 2) :=
  (by decide +kernel : ∀ t : Fin grid0.N, _)

/-- Every block of the 8 × 8 tiling belongs to some point. -/
theorem onto_adj : ∀ (q0 : Fin 8) (q1 : Fin 8), ∃ t : Fin cfg0.N, win0_5.index t = ![q0.val, q1.val] :=
  (by decide +kernel : ∀ (q0 : Fin 8) (q1 : Fin 8), ∃ t : Fin grid0.N, win0_5.index t = ![q0.val, q1.val])

/-- Narrowing is the identity on extended reals, and the two blocks of a point sit at the same place in their arrays. -/
theorem flushed_adj (c : Dev nD) (t : Fin cfg0.N) :
    (dat0 (F := Ideal) V c).flushed 5 t
      = ((cfg0.win 5).blk t).view.read (Elt Ideal) (fun i : S8192x8192.Idx => adjArr0 V c i) := by
  funext j
  exact congrArg (V c main_arg1) (ext_adj (congrArg (· * 1024 + 1 * (j 0).val) (idx_adj t).1)
    (congrArg (· * 1024 + 1 * (j 1).val) (idx_adj t).2))

/-- The blocks tile the array: entry (r, c) lies in block (r / 1024, c / 1024). -/
theorem cover_adj (i : S8192x8192.Idx) :
    ∃ t : Fin cfg0.N, (cfg0.win 5).flush t = true ∧ i ∈ ((cfg0.win 5).blk t).view.set := by
  have hi0 : (i 0).val < 8192 := (i 0).isLt
  have hi1 : (i 1).val < 8192 := (i 1).isLt
  obtain ⟨t, ht⟩ := onto_adj ⟨(i 0).val / 1024, by omega⟩ ⟨(i 1).val / 1024, by omega⟩
  have q0 : win0_5.index t (0 : Fin 2) = (i 0).val / 1024 := congrFun ht 0
  have q1 : win0_5.index t (1 : Fin 2) = (i 1).val / 1024 := congrFun ht 1
  refine ⟨t, flush0_5 t, ?_⟩
  rw [ext_adj (i := i) (j := ((cfg0.win 5).blk t).view.emb (ix2 (⟨(i 0).val % 1024, Nat.mod_lt _ (by decide)⟩ : Fin 1024)
      (⟨(i 1).val % 1024, Nat.mod_lt _ (by decide)⟩ : Fin 1024)))
    (by show _ = win0_5.index t (0 : Fin 2) * 1024 + 1 * ((i 0).val % 1024); omega)
    (by show _ = win0_5.index t (1 : Fin 2) * 1024 + 1 * ((i 1).val % 1024); omega)]
  exact View.emb_mem_set _ _

/-- The copy ends holding the adjacency, entry by entry. -/
theorem final0_5 (c : Dev nD) :
    (dat0 (F := Ideal) V c).arrAt 5 cfg0.N = fun i : S8192x8192.Idx => adjArr0 V c i :=
  (dat0 (F := Ideal) V c).arrAt_eq_of_cover 5 _ (fun t _ => flushed_adj V c t) cover_adj

end Cert.KernelIdeal.Hand

end
-- ==== Proof.Val12Spec.lean ====
import Idealize.ShloMosaic.PureOps.Ideal
import Idealize.ShloMosaic.Lib.ValueIdx
import proofs.«400709_j481036337855_3_alg».proof.Proof.LibReal

noncomputable section

namespace Cert.KernelIdeal.Hand

open Idealize.ShloMosaic Idealize.ShloMosaic.ValueIdx
open scoped BigOperators

/-- Entry (r, q) is max (Σ_k a[r,k] · y[k,q]) 0. -/
def gcnVal1 (a : (⟨2, ![8192, 8192]⟩ : Shape).Idx → EReal) (y : (⟨2, ![8192, 512]⟩ : Shape).Idx → EReal) :
    (⟨2, ![8192, 512]⟩ : Shape).Idx → EReal :=
  fun i => max (∑ k : Fin 8192, a (ix2 (i 0 : Fin 8192) k) * y (ix2 k (i 1 : Fin 512))) 0

/-- The same with 1536 feature columns. -/
def gcnVal2 (a : (⟨2, ![8192, 8192]⟩ : Shape).Idx → EReal) (y : (⟨2, ![8192, 1536]⟩ : Shape).Idx → EReal) :
    (⟨2, ![8192, 1536]⟩ : Shape).Idx → EReal :=
  fun i => max (∑ k : Fin 8192, a (ix2 (i 0 : Fin 8192) k) * y (ix2 k (i 1 : Fin 1536))) 0

end Cert.KernelIdeal.Hand

end
-- ==== Proof.Val1.lean ====
import proofs.«400709_j481036337855_3_alg».proof.Proof.Reg1
import proofs.«400709_j481036337855_3_alg».proof.Proof.Val12Spec
import proofs.«400709_j481036337855_3_alg».proof.Proof.MathBlocks

noncomputable section

namespace Cert.KernelIdeal.Hand

open Idealize.ShloMosaic Idealize.ShloMosaic.TcCoe Idealize.ShloMosaic.ValueIdx
open Cert.KernelIdeal Cert.KernelIdeal.Gen
open scoped BigOperators

/-- An index of a rank-2 array is determined by its two coordinates. -/
theorem ext_gcn1 {n0 n1 : ℕ} {i j : (⟨2, ![n0, n1]⟩ : Shape).Idx} (h0 : (i 0).val = (j 0).val)
    (h1 : (i 1).val = (j 1).val) : i = j :=
  (eq_ix2 i).trans ((congrArg₂ ix2 (Fin.ext h0) (Fin.ext h1)).trans (eq_ix2 j).symm)

/-- The product of two blocks at (p, q) is the inner product of row p of the first with column q of the second. -/
theorem pay2_1_apply (a : Vec Ideal S2048x1024 .bf16) (y : Vec Ideal S1024x512 .bf16) (acc : Vec Ideal S2048x512 .f32)
    (p : Fin 2048) (q : Fin 512) :
    k1_pay2 a y acc (ix2 p q) = acc (ix2 p q) + ∑ k : Fin 1024, a (ix2 p k) * y (ix2 k q) := by
  unfold k1_pay2
  simp only [shapeCast_self]
  refine congrArg (acc (ix2 p q) + ·) ((Ideal.matmul_constant_zero_apply (φ₁ := .bf16) (φ₂ := .bf16) _ none a y (ix2 p q)).trans ?_)
  exact Fintype.sum_equiv (contrEquiv1 _ 1024 rfl rfl) _ _ fun k =>
    congrArg₂ (a · * y ·) (ext_gcn1 rfl rfl) (ext_gcn1 rfl rfl)

/-- By enumeration of the grid's points. -/
theorem idx_gcn1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- Element (p, q) of the output block of point t is element (2048 · (t / 8) + p, q) of the array. -/
theorem emb_gcn1 (t : Fin cfg1.N) (p : Fin 2048) (q : Fin 512) (i : S8192x512.Idx)
    (h0 : (i 0).val = 2048 * (t.val / 8) + p.val) (h1 : (i 1).val = q.val) :
    ((cfg1.win 2).blk t).view.emb (ix2 p q) = i := by
  obtain ⟨-, -, -, -, e0, e1⟩ := idx_gcn1 t
  exact ext_gcn1 (by show win1_2.index t (0 : Fin 2) * 2048 + 1 * p.val = _; omega)
    (by show win1_2.index t (1 : Fin 2) * 512 + 1 * q.val = _; omega)

/-- The row blocks tile the array: row r lies in row block r / 2048. -/
theorem cover_gcn1 (i : S8192x512.Idx) :
    ∃ t : Fin cfg1.N, (cfg1.win 2).flush t = true ∧ i ∈ ((cfg1.win 2).blk t).view.set := by
  have hi : (i 0).val < 8192 := (i 0).isLt
  obtain ⟨t, ht⟩ : ∃ t : Fin cfg1.N, t.val = 8 * ((i 0).val / 2048) + 7 :=
    ⟨⟨_, by have : cfg1.N = 32 := N_1; omega⟩, rfl⟩
  refine ⟨t, (flush1_2 t).mpr (by omega), ?_⟩
  rw [← emb_gcn1 t ⟨(i 0).val % 2048, Nat.mod_lt _ (by decide)⟩ (i 1) i
    (by show (i 0).val = 2048 * (t.val / 8) + (i 0).val % 2048; omega) rfl]
  exact View.emb_mem_set _ _

variable (V : (c : Dev nD) → (b : Ref sig .tc) → Buf (Elt Ideal) ((c : Thread nD τ).loc b))

/-- The term of the inner product of row r of a with column q of y at position j (zero past the end). -/
def gterm1 (a : Vec Ideal S8192x8192 .bf16) (y : Vec Ideal S8192x512 .bf16) (r : Fin 8192) (q : Fin 512) (j : ℕ) : EReal :=
  if h : j < 8192 then a (ix2 r ⟨j, h⟩) * y (ix2 ⟨j, h⟩ q) else 0

/-- By induction on the column block b within a row block: the accumulated sum runs over the column blocks 0 … b. -/
theorem acc1_apply (c : Dev nD) (n : ℕ) : ∀ (hn : n < cfg1.N) (p : Fin 2048) (q : Fin 512) (r : Fin 8192),
    r.val = 2048 * (n / 8) + p.val →
    acc1 V c n hn (ix2 p q)
      = ∑ b ∈ Finset.range (n % 8 + 1), ∑ k ∈ Finset.range 1024, gterm1 (V c main_v6_1) (V c main_v10) r q (b * 1024 + k) := by
  induction n using Nat.strongRecOn with | ind n ih => ?_
  intro hn p q r hr
  obtain ⟨e0, e1, e2, e3, -, -⟩ := idx_gcn1 ⟨n, hn⟩
  dsimp only at e0 e1 e2
  have hb : ∀ acc : Vec Ideal S2048x512 .f32, k1_pay2 (iblk1 V c 0 ⟨n, hn⟩) (iblk1 V c 1 ⟨n, hn⟩) acc (ix2 p q)
      = acc (ix2 p q) + ∑ k ∈ Finset.range 1024, gterm1 (V c main_v6_1) (V c main_v10) r q (n % 8 * 1024 + k) := fun acc => by
    rw [pay2_1_apply, Finset.sum_range]
    refine congrArg (acc (ix2 p q) + ·) (Finset.sum_congr rfl fun k _ => ?_)
    have hj : n % 8 * 1024 + k.val < 8192 := by omega
    unfold gterm1
    rw [dif_pos hj]
    exact congrArg₂ (· * ·)
      (congrArg (V c main_v6_1) (ext_gcn1 (by show win1_0.index _ (0 : Fin 2) * 2048 + 1 * p.val = r.val; omega)
        (by show win1_0.index _ (1 : Fin 2) * 1024 + 1 * k.val = n % 8 * 1024 + k.val; omega)))
      (congrArg (V c main_v10) (ext_gcn1 (by show win1_1.index _ (0 : Fin 2) * 1024 + 1 * k.val = n % 8 * 1024 + k.val; omega)
        (by show win1_1.index _ (1 : Fin 2) * 512 + 1 * q.val = q.val; omega)))
  rw [Finset.sum_range_succ]
  by_cases h : n % 8 = 0
  · rw [congrFun (acc1_first V c ⟨n, hn⟩ h), hb, h, Finset.sum_range_zero]
    unfold k1_pay1
    simp only [shapeCast_self]
    exact congrArg (· + _) Ideal.ofBits_zero_f32
  · rw [congrFun (acc1_next V c ⟨n, hn⟩ h), hb, ih (n - 1) (by omega) _ p q r (by omega),
      show (n - 1) % 8 + 1 = n % 8 by omega]

/-- Over all column blocks of a row block the block sums make up the whole inner product. -/
theorem flushed1_eq (c : Dev nD) (t : Fin cfg1.N) (hf : (cfg1.win 2).flush t = true) :
    (dat1 (F := Ideal) V c).flushed 2 t
      = ((cfg1.win 2).blk t).view.read (Elt Ideal) (gcnVal1 (V c main_v6_1) (V c main_v10)) := by
  have h7 : t.val % 8 = 7 := (flush1_2 t).mp hf
  have ht : t.val < 32 := lt_of_lt_of_eq t.isLt N_1
  funext j
  obtain ⟨p, q, rfl⟩ : ∃ (p : Fin 2048) (q : Fin 512), j = ix2 p q := ⟨j 0, j 1, eq_ix2 j⟩
  have hr : 2048 * (t.val / 8) + p.val < 8192 := by omega
  show max (acc1 V c t.val t.isLt (ix2 p q)) (Ideal.ofBits .f32 0x00000000#32) = gcnVal1 _ _ (((cfg1.win 2).blk t).view.emb (ix2 p q))
  rw [emb_gcn1 t p q (ix2 ⟨_, hr⟩ q) rfl rfl, Ideal.ofBits_zero_f32, acc1_apply V c t.val t.isLt p q ⟨_, hr⟩ rfl, h7,
    Cert.Math.sum_range_blocks 8 1024, Finset.sum_range]
  refine congrArg (max · 0) (Finset.sum_congr rfl fun k _ => ?_)
  unfold gterm1
  rw [dif_pos k.isLt]

/-- The output array ends holding the rectified product of the two input arrays. -/
theorem final1 (c : Dev nD) :
    (dat1 (F := Ideal) V c).arrAt 2 cfg1.N = gcnVal1 (V c main_v6_1) (V c main_v10) :=
  (dat1 (F := Ideal) V c).arrAt_eq_of_cover 2 _ (flushed1_eq V c) cover_gcn1

end Cert.KernelIdeal.Hand

end
-- ==== Proof.Val2.lean ====
import proofs.«400709_j481036337855_3_alg».proof.Proof.Reg2
import proofs.«400709_j481036337855_3_alg».proof.Proof.Val12Spec
import proofs.«400709_j481036337855_3_alg».proof.Proof.MathBlocks

noncomputable section

namespace Cert.KernelIdeal.Hand

open Idealize.ShloMosaic Idealize.ShloMosaic.TcCoe Idealize.ShloMosaic.ValueIdx
open Cert.KernelIdeal Cert.KernelIdeal.Gen
open scoped BigOperators

/-- An index of a rank-2 array is determined by its two coordinates. -/
theorem ext_gcn2 {n0 n1 : ℕ} {i j : (⟨2, ![n0, n1]⟩ : Shape).Idx} (h0 : (i 0).val = (j 0).val)
    (h1 : (i 1).val = (j 1).val) : i = j :=
  (eq_ix2 i).trans ((congrArg₂ ix2 (Fin.ext h0) (Fin.ext h1)).trans (eq_ix2 j).symm)

/-- The product of two blocks at (p, q) is the inner product of row p of the first with column q of the second. -/
theorem pay2_2_apply (a : Vec Ideal S1024x512 .bf16) (y : Vec Ideal S512x1536 .bf16) (acc : Vec Ideal S1024x1536 .f32)
    (p : Fin 1024) (q : Fin 1536) :
    k2_pay2 a y acc (ix2 p q) = acc (ix2 p q) + ∑ k : Fin 512, a (ix2 p k) * y (ix2 k q) := by
  unfold k2_pay2
  simp only [shapeCast_self]
  refine congrArg (acc (ix2 p q) + ·) ((Ideal.matmul_constant_zero_apply (φ₁ := .bf16) (φ₂ := .bf16) _ none a y (ix2 p q)).trans ?_)
  exact Fintype.sum_equiv (contrEquiv1 _ 512 rfl rfl) _ _ fun k =>
    congrArg₂ (a · * y ·) (ext_gcn2 rfl rfl) (ext_gcn2 rfl rfl)

/-- By enumeration of the grid's points. -/
theorem idx_gcn2 : ∀ t : Fin cfg2.N, win2_0.index t (0 : Fin 2) = t.val / 16 ∧ win2_0.index t (1 : Fin 2) = t.val % 16
    ∧ win2_1.index t (0 : Fin 2) = t.val % 16 ∧ win2_1.index t (1 : Fin 2) = 0
    ∧ win2_2.index t (0 : Fin 2) = t.val / 16 ∧ win2_2.index t (1 : Fin 2) = 0 :=
  (by decide +kernel : ∀ t : Fin grid2.N, _)

/-- Element (p, q) of the output block of point t is element (1024 · (t / 16) + p, q) of the array. -/
theorem emb_gcn2 (t : Fin cfg2.N) (p : Fin 1024) (q : Fin 1536) (i : S8192x1536.Idx)
    (h0 : (i 0).val = 1024 * (t.val / 16) + p.val) (h1 : (i 1).val = q.val) :
    ((cfg2.win 2).blk t).view.emb (ix2 p q) = i := by
  obtain ⟨-, -, -, -, e0, e1⟩ := idx_gcn2 t
  exact ext_gcn2 (by show win2_2.index t (0 : Fin 2) * 1024 + 1 * p.val = _; omega)
    (by show win2_2.index t (1 : Fin 2) * 1536 + 1 * q.val = _; omega)

/-- The row blocks tile the array: row r lies in row block r / 1024. -/
theorem cover_gcn2 (i : S8192x1536.Idx) :
    ∃ t : Fin cfg2.N, (cfg2.win 2).flush t = true ∧ i ∈ ((cfg2.win 2).blk t).view.set := by
  have hi : (i 0).val < 8192 := (i 0).isLt
  obtain ⟨t, ht⟩ : ∃ t : Fin cfg2.N, t.val = 16 * ((i 0).val / 1024) + 15 :=
    ⟨⟨_, by have : cfg2.N = 128 := N_2; omega⟩, rfl⟩
  refine ⟨t, (flush2_2 t).mpr (by omega), ?_⟩
  rw [← emb_gcn2 t ⟨(i 0).val % 1024, Nat.mod_lt _ (by decide)⟩ (i 1) i
    (by show (i 0).val = 1024 * (t.val / 16) + (i 0).val % 1024; omega) rfl]
  exact View.emb_mem_set _ _

variable (V : (c : Dev nD) → (b : Ref sig .tc) → Buf (Elt Ideal) ((c : Thread nD τ).loc b))

/-- The term of the inner product of row r of a with column q of y at position j (zero past the end). -/
def gterm2 (a : Vec Ideal S8192x8192 .bf16) (y : Vec Ideal S8192x1536 .bf16) (r : Fin 8192) (q : Fin 1536) (j : ℕ) : EReal :=
  if h : j < 8192 then a (ix2 r ⟨j, h⟩) * y (ix2 ⟨j, h⟩ q) else 0

/-- By induction on the column block b within a row block: the accumulated sum runs over the column blocks 0 … b. -/
theorem acc2_apply (c : Dev nD) (n : ℕ) : ∀ (hn : n < cfg2.N) (p : Fin 1024) (q : Fin 1536) (r : Fin 8192),
    r.val = 1024 * (n / 16) + p.val →
    acc2 V c n hn (ix2 p q)
      = ∑ b ∈ Finset.range (n % 16 + 1), ∑ k ∈ Finset.range 512, gterm2 (V c main_v6_1) (V c main_v66) r q (b * 512 + k) := by
  induction n using Nat.strongRecOn with | ind n ih => ?_
  intro hn p q r hr
  obtain ⟨e0, e1, e2, e3, -, -⟩ := idx_gcn2 ⟨n, hn⟩
  dsimp only at e0 e1 e2
  have hb : ∀ acc : Vec Ideal S1024x1536 .f32, k2_pay2 (iblk2 V c 0 ⟨n, hn⟩) (iblk2 V c 1 ⟨n, hn⟩) acc (ix2 p q)
      = acc (ix2 p q) + ∑ k ∈ Finset.range 512, gterm2 (V c main_v6_1) (V c main_v66) r q (n % 16 * 512 + k) := fun acc => by
    rw [pay2_2_apply, Finset.sum_range]
    refine congrArg (acc (ix2 p q) + ·) (Finset.sum_congr rfl fun k _ => ?_)
    have hj : n % 16 * 512 + k.val < 8192 := by omega
    unfold gterm2
    rw [dif_pos hj]
    exact congrArg₂ (· * ·)
      (congrArg (V c main_v6_1) (ext_gcn2 (by show win2_0.index _ (0 : Fin 2) * 1024 + 1 * p.val = r.val; omega)
        (by show win2_0.index _ (1 : Fin 2) * 512 + 1 * k.val = n % 16 * 512 + k.val; omega)))
      (congrArg (V c main_v66) (ext_gcn2 (by show win2_1.index _ (0 : Fin 2) * 512 + 1 * k.val = n % 16 * 512 + k.val; omega)
        (by show win2_1.index _ (1 : Fin 2) * 1536 + 1 * q.val = q.val; omega)))
  rw [Finset.sum_range_succ]
  by_cases h : n % 16 = 0
  · rw [congrFun (acc2_first V c ⟨n, hn⟩ h), hb, h, Finset.sum_range_zero]
    unfold k2_pay1
    simp only [shapeCast_self]
    exact congrArg (· + _) Ideal.ofBits_zero_f32
  · rw [congrFun (acc2_next V c ⟨n, hn⟩ h), hb, ih (n - 1) (by omega) _ p q r (by omega),
      show (n - 1) % 16 + 1 = n % 16 by omega]

/-- Over all column blocks of a row block the block sums make up the whole inner product. -/
theorem flushed2_eq (c : Dev nD) (t : Fin cfg2.N) (hf : (cfg2.win 2).flush t = true) :
    (dat2 (F := Ideal) V c).flushed 2 t
      = ((cfg2.win 2).blk t).view.read (Elt Ideal) (gcnVal2 (V c main_v6_1) (V c main_v66)) := by
  have h7 : t.val % 16 = 15 := (flush2_2 t).mp hf
  have ht : t.val < 128 := lt_of_lt_of_eq t.isLt N_2
  funext j
  obtain ⟨p, q, rfl⟩ : ∃ (p : Fin 1024) (q : Fin 1536), j = ix2 p q := ⟨j 0, j 1, eq_ix2 j⟩
  have hr : 1024 * (t.val / 16) + p.val < 8192 := by omega
  show max (acc2 V c t.val t.isLt (ix2 p q)) (Ideal.ofBits .f32 0x00000000#32) = gcnVal2 _ _ (((cfg2.win 2).blk t).view.emb (ix2 p q))
  rw [emb_gcn2 t p q (ix2 ⟨_, hr⟩ q) rfl rfl, Ideal.ofBits_zero_f32, acc2_apply V c t.val t.isLt p q ⟨_, hr⟩ rfl, h7,
    Cert.Math.sum_range_blocks 16 512, Finset.sum_range]
  refine congrArg (max · 0) (Finset.sum_congr rfl fun k _ => ?_)
  unfold gterm2
  rw [dif_pos k.isLt]

/-- The output array ends holding the rectified product of the two input arrays. -/
theorem final2 (c : Dev nD) :
    (dat2 (F := Ideal) V c).arrAt 2 cfg2.N = gcnVal2 (V c main_v6_1) (V c main_v66) :=
  (dat2 (F := Ideal) V c).arrAt_eq_of_cover 2 _ (flushed2_eq V c) cover_gcn2

end Cert.KernelIdeal.Hand

end
-- ==== Proof.Val3Spec.lean ====
import Idealize.ShloMosaic.PureOps.Ideal
import Idealize.ShloMosaic.Lib.ValueIdx
import proofs.«400709_j481036337855_3_alg».proof.Proof.LibReal

noncomputable section

namespace Cert.KernelIdeal.Hand

open Idealize.ShloMosaic Idealize.ShloMosaic.ValueIdx
open scoped BigOperators

/-- Entry (r, c) of s·sᵀ: the inner product of rows r and c of s. -/
def ipVal (s : Vec Ideal (⟨2, ![8192, 256]⟩ : Shape) .bf16) : Vec Ideal (⟨2, ![8192, 8192]⟩ : Shape) .f32 :=
  fun i => ∑ k : Fin 256, s (ix2 (n0 := 8192) (n1 := 256) (i 0) k) * s (ix2 (n0 := 8192) (n1 := 256) (i 1) k)

theorem ipVal_apply (s : Vec Ideal (⟨2, ![8192, 256]⟩ : Shape) .bf16) (r c : Fin 8192) :
    ipVal s (ix2 r c) = ∑ k : Fin 256, s (ix2 r k) * s (ix2 c k) := rfl

end Cert.KernelIdeal.Hand

end
-- ==== Proof.Val3.lean ====
import proofs.«400709_j481036337855_3_alg».proof.Proof.Reg3
import proofs.«400709_j481036337855_3_alg».proof.Proof.Val3Spec

noncomputable section

namespace Cert.KernelIdeal.Hand

open Idealize.ShloMosaic Idealize.ShloMosaic.TcCoe Idealize.ShloMosaic.ValueIdx
open Cert.KernelIdeal Cert.KernelIdeal.Gen
open scoped BigOperators

/-- An index of a rank-2 array is determined by its two coordinates. -/
theorem ext_ip {n0 n1 : ℕ} {i j : (⟨2, ![n0, n1]⟩ : Shape).Idx} (h0 : (i 0).val = (j 0).val)
    (h1 : (i 1).val = (j 1).val) : i = j :=
  (eq_ix2 i).trans ((congrArg₂ ix2 (Fin.ext h0) (Fin.ext h1)).trans (eq_ix2 j).symm)

/-- Entry (p, q) of the block product is the inner product of row p of the first block with row q of the second. -/
theorem pay_ip_apply (x0 : Vec Ideal S2048x256 .bf16) (x1 : Vec Ideal S1024x256 .bf16) (p : Fin 2048) (q : Fin 1024) :
    k3_pay1 (F := Ideal) x0 x1 (ix2 p q) = ∑ k : Fin 256, x0 (ix2 p k) * x1 (ix2 q k) := by
  unfold k3_pay1
  simp only [shapeCast_self]
  refine (Ideal.matmul_constant_zero_apply (φ₁ := .bf16) (φ₂ := .bf16) _ none x0 x1 (ix2 p q)).trans ?_
  exact Fintype.sum_equiv (contrEquiv1 _ 256 rfl rfl) _ _ fun k =>
    congrArg₂ (x0 · * x1 ·) (ext_ip rfl rfl) (ext_ip rfl rfl)

/-- By enumeration of the grid's points. -/
theorem idx_ip : ∀ t : Fin cfg3.N,
    win3_0.index t (0 : Fin 2) = win3_2.index t (0 : Fin 2) ∧ win3_0.index t (1 : Fin 2) = 0
    ∧ win3_1.index t (0 : Fin 2) = win3_2.index t (1 : Fin 2) ∧ win3_1.index t (1 : Fin 2) = 0 :=
  (by decide +kernel : ∀ t : Fin grid3.N, _)

/-- Every block of the 4 × 8 tiling belongs to some point. -/
theorem onto_ip : ∀ (q0 : Fin 4) (q1 : Fin 8), ∃ t : Fin cfg3.N, win3_2.index t = ![q0.val, q1.val] :=
  (by decide +kernel : ∀ (q0 : Fin 4) (q1 : Fin 8), ∃ t : Fin grid3.N, win3_2.index t = ![q0.val, q1.val])

variable (V : (c : Dev nD) → (b : Ref sig .tc) → Buf (Elt Ideal) ((c : Thread nD τ).loc b))

/-- Rows p and q of the two input blocks are the rows of s that entry (p, q) of the output block has in the array. -/
theorem flushed_ip (c : Dev nD) (t : Fin cfg3.N) :
    (dat3 (F := Ideal) V c).flushed 2 t = ((cfg3.win 2).blk t).view.read (Elt Ideal) (ipVal (V c main_v94)) := by
  funext j
  obtain ⟨p, q, rfl⟩ : ∃ (p : Fin 2048) (q : Fin 1024), j = ix2 p q := ⟨j 0, j 1, eq_ix2 j⟩
  obtain ⟨e0, e1, e2, e3⟩ := idx_ip t
  show k3_pay1 (F := Ideal) (iblk3 V c 0 t) (iblk3 V c 1 t) (ix2 p q)
    = ipVal (V c main_v94) (((cfg3.win 2).blk t).view.emb (ix2 p q))
  rw [pay_ip_apply]
  exact Finset.sum_congr rfl fun k _ => congrArg₂ (· * ·)
    (congrArg (V c main_v94) (ext_ip
      (by show win3_0.index t (0 : Fin 2) * 2048 + 1 * p.val = win3_2.index t (0 : Fin 2) * 2048 + 1 * p.val; omega)
      (by show win3_0.index t (1 : Fin 2) * 256 + 1 * k.val = k.val; omega)))
    (congrArg (V c main_v94) (ext_ip
      (by show win3_1.index t (0 : Fin 2) * 1024 + 1 * q.val = win3_2.index t (1 : Fin 2) * 1024 + 1 * q.val; omega)
      (by show win3_1.index t (1 : Fin 2) * 256 + 1 * k.val = k.val; omega)))

/-- The blocks tile the array: entry (r, c) lies in block (r / 2048, c / 1024). -/
theorem cover_ip (i : S8192x8192.Idx) :
    ∃ t : Fin cfg3.N, (cfg3.win 2).flush t = true ∧ i ∈ ((cfg3.win 2).blk t).view.set := by
  have hi0 : (i 0).val < 8192 := (i 0).isLt
  have hi1 : (i 1).val < 8192 := (i 1).isLt
  obtain ⟨t, ht⟩ := onto_ip ⟨(i 0).val / 2048, by omega⟩ ⟨(i 1).val / 1024, by omega⟩
  have q0 : win3_2.index t (0 : Fin 2) = (i 0).val / 2048 := congrFun ht 0
  have q1 : win3_2.index t (1 : Fin 2) = (i 1).val / 1024 := congrFun ht 1
  refine ⟨t, flush3_2 t, ?_⟩
  rw [ext_ip (i := i) (j := ((cfg3.win 2).blk t).view.emb (ix2 (⟨(i 0).val % 2048, Nat.mod_lt _ (by decide)⟩ : Fin 2048)
      (⟨(i 1).val % 1024, Nat.mod_lt _ (by decide)⟩ : Fin 1024)))
    (by show _ = win3_2.index t (0 : Fin 2) * 2048 + 1 * ((i 0).val % 2048); omega)
    (by show _ = win3_2.index t (1 : Fin 2) * 1024 + 1 * ((i 1).val % 1024); omega)]
  exact View.emb_mem_set _ _

/-- The output array ends holding s·sᵀ. -/
theorem final3 (c : Dev nD) : (dat3 (F := Ideal) V c).arrAt 2 cfg3.N = ipVal (V c main_v94) :=
  (dat3 (F := Ideal) V c).arrAt_eq_of_cover 2 _ (fun t _ => flushed_ip V c t) cover_ip

end Cert.KernelIdeal.Hand

end
-- ==== Proof.Finite.lean ====
import proofs.«400709_j481036337855_3_alg».proof.Pre_finite_inputs
import proofs.«400709_j481036337855_3_alg».proof.Proof.Gen.Pre_finite_inputs
import proofs.«400709_j481036337855_3_alg».proof.Proof.LibReal
import Idealize.ShloMosaic.Lib.ReduceAll

noncomputable section

namespace Cert.Finite

open Idealize.ShloMosaic
open Cert.LibReal
open Cert.Pre_finite_inputs

instance : Subsingleton S_.Idx := ⟨fun _ _ => funext fun d => d.elim0⟩

theorem ofBool_eq_one_iff {b : Bool} : BitVec.ofBool b = 1#1 ↔ b = true := by cases b <;> decide

theorem isReal_of_abs_olt_inf {x : EReal}
    (h : Ideal.cmp .olt (max x (-x)) (Ideal.ofBits .f32 0x7F800000#32) = 1#1) : IsReal x := by
  rw [ofBits_pos_inf] at h
  have h' : BitVec.ofBool (decide (max x (-x) < ⊤)) = 1#1 := h
  exact isReal_of_abs_lt_top (of_decide_eq_true (ofBool_eq_one_iff.mp h'))

theorem all_real {S : Shape} {axes : List (Fin S.rank)} (a : FVec Ideal S .f32)
    (hb : S_.BroadcastsInDim S (![] : Fin 0 → Fin S.rank)) (hr : S.ReducesTo axes S_) (hu : 0 < S_.numel)
    (j : S_.Idx)
    (e : Host.reduce IntOp.andi
        (cmpf .olt (Host.absf a) (broadcastInDim S ![] hb (constant S_ .f32 0x7F800000#32)))
        (constantI S_ 1 1#1) hr hu j = 1#1) :
    ∀ i, IsReal (a i) := fun i =>
  isReal_of_abs_olt_inf (Host.reduce_andi_all _ _ hr hu j e i)

theorem args_real (a0 : FVec Ideal S8192x128 .f32) (a1 : FVec Ideal S8192x8192 .f32)
    (a2 : FVec Ideal S128x128 .f32) (a3 : FVec Ideal S256x1 .f32) (a4 : FVec Ideal S128x256 .f32)
    (a5 : FVec Ideal S256 .f32) (a6 : FVec Ideal S256 .f32) (a7 : FVec Ideal S256x1433 .f32)
    (a8 : FVec Ideal S1433 .f32) (a9 : FVec Ideal S1433 .f32) (a10 : FVec Ideal S128x256 .f32)
    (a11 : FVec Ideal S256 .f32) (a12 : FVec Ideal S256 .f32)
    (h : Cert.Pre_finite_inputs.fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i))
      ∧ (∀ i, IsReal (a8 i)) ∧ (∀ i, IsReal (a9 i)) ∧ (∀ i, IsReal (a10 i)) ∧ (∀ i, IsReal (a11 i))
      ∧ (∀ i, IsReal (a12 i)) := by
  have h0 := congrFun h (fun d => d.elim0)
  dsimp only [fn, fn_part1, fn_part2, fn_part3, andi] at h0
  simp only [IntOp.andi_eq_one] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6, all_real a7 _ _ _ _ e7,
    all_real a8 _ _ _ _ e8, all_real a9 _ _ _ _ e9, all_real a10 _ _ _ _ e10, all_real a11 _ _ _ _ e11,
    all_real a12 _ _ _ _ e12⟩

end Cert.Finite

end
-- ==== Proof.RealOps.lean ====
import Idealize.ShloMosaic.PureOps.Ideal
import Idealize.ShloMosaic.PureOps.Ideal.Laws
import proofs.«400709_j481036337855_3_alg».proof.Proof.LibReal

noncomputable section

namespace Cert.RealOps

open Idealize.ShloMosaic
open Cert.LibReal
open scoped BigOperators

-- Each entry of a matrix product is a finite sum of products of entries.
theorem real_dotGeneral {sl sr so : Shape} {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) :
    ∀ j, IsReal (Host.dotGeneral d prec lhs rhs j) := fun j => by
  show IsReal (FloatOps.dotGeneral d prec .single lhs rhs j)
  rw [Ideal.dotGeneral_apply]
  exact IsReal.sum_univ _ fun k => (hl _).mul (hr _)

end Cert.RealOps

end
-- ==== Proof.BridgeReal.lean ====
import proofs.«400709_j481036337855_3_alg».proof.Proof.Run
import proofs.«400709_j481036337855_3_alg».proof.Proof.KHost0
import proofs.«400709_j481036337855_3_alg».proof.Proof.Finite
import proofs.«400709_j481036337855_3_alg».proof.Proof.RealOps
import proofs.«400709_j481036337855_3_alg».proof.Proof.Val0Arr

set_option maxRecDepth 16384

noncomputable section

namespace Cert.KernelIdeal.Hand

open Idealize.ShloMosaic Idealize.ShloMosaic.TcCoe
open Idealize.SL Idealize.SL.Sem
open Cert.KernelIdeal Cert.KernelIdeal.Gen
open Cert.LibReal

section Stages
open Cert.Stages Cert.RealOps

-- Each entry of a matrix product is a finite sum of products of entries.
theorem kWh_real (x : Ten Ideal S8192x128) (w : Ten Ideal S128x128)
    (hx : ∀ i, IsReal (x i)) (hw : ∀ i, IsReal (w i)) : ∀ i, IsReal (kWh x w i) := by
  unfold kWh mm
  exact real_dotGeneral _ none x w hx hw

-- A slice reads entries of its operand.
theorem kF1_real (x : Ten Ideal S8192x128) (w : Ten Ideal S128x128) (a : Ten Ideal S256x1)
    (hx : ∀ i, IsReal (x i)) (hw : ∀ i, IsReal (w i)) (ha : ∀ i, IsReal (a i)) : ∀ i, IsReal (kF1 x w a i) := by
  unfold kF1 mm
  exact real_dotGeneral _ none (kWh x w) (kASrc a) (kWh_real x w hx hw) fun _ => ha _

-- A reshape reads entries of its operand.
theorem kF2t_real (x : Ten Ideal S8192x128) (w : Ten Ideal S128x128) (a : Ten Ideal S256x1)
    (hx : ∀ i, IsReal (x i)) (hw : ∀ i, IsReal (w i)) (ha : ∀ i, IsReal (a i)) : ∀ i, IsReal (kF2t x w a i) := by
  unfold kF2t kF2 mm
  exact fun _ => real_dotGeneral _ none (kWh x w) (kADst a) (kWh_real x w hx hw) (fun _ => ha _) _

end Stages

theorem attn_inputs_real_of (W : Valuation τ sig (Elt Ideal))
    (h0 : ∀ i, IsReal ((W (Proc.devRef .tc main_arg0) : S8192x128.Idx → EReal) i))
    (h1 : ∀ i, IsReal ((W (Proc.devRef .tc main_arg1) : S8192x8192.Idx → EReal) i))
    (h2 : ∀ i, IsReal ((W (Proc.devRef .tc main_arg2) : S128x128.Idx → EReal) i))
    (h3 : ∀ i, IsReal ((W (Proc.devRef .tc main_arg3) : S256x1.Idx → EReal) i)) :
    (∀ i, IsReal ((StableHlo.after hostOps0 W (Proc.devRef .tc main_v2) : S8192x1.Idx → EReal) i))
    ∧ (∀ i, IsReal ((StableHlo.after hostOps0 W (Proc.devRef .tc main_v5) : S1x8192.Idx → EReal) i))
    ∧ (∀ i, IsReal ((StableHlo.after hostOps0 W (Proc.devRef .tc main_v0) : S8192x128.Idx → EReal) i))
    ∧ (∀ i, IsReal ((StableHlo.after hostOps0 W (Proc.devRef .tc main_arg1) : S8192x8192.Idx → EReal) i)) := by
  refine ⟨?_, ?_, ?_, ?_⟩
  · rw [hostOps0_v2 W]; exact kF1_real _ _ _ h0 h2 h3
  · rw [hostOps0_v5 W]; exact kF2t_real _ _ _ h0 h2 h3
  · rw [hostOps0_v0 W]; exact kWh_real _ _ h0 h2
  · rw [StableHlo.after_of_writes_sub hostOps0 W hostOps0_writes (show main_arg1 ∉ hostOps0_W by decide)]; exact h1

theorem attn_inputs_real (m : (ℓ : Loc nD τ sig) → Buf (Elt Ideal) ℓ) (c : Dev nD)
    (h : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) = fun _ => 1#1) :
    (∀ i, IsReal (f1A (E1 m) c i)) ∧ (∀ i, IsReal (f2A (E1 m) c i)) ∧ (∀ i, IsReal (whA (E1 m) c i))
      ∧ (∀ i, IsReal (adjA (E1 m) c i)) := by
  obtain ⟨r0, r1, r2, r3, -⟩ := Cert.Finite.args_real _ _ _ _ _ _ _ _ _ _ _ _ _ h
  exact attn_inputs_real_of (W0 m c) r0 r1 r2 r3

end Cert.KernelIdeal.Hand

end
-- ==== Proof.StagesRead.lean ====
import proofs.«400709_j481036337855_3_alg».proof.Proof.Stages
import Idealize.ShloMosaic.PureOps.Ideal.Laws
import Idealize.ShloMosaic.Lib.ValueIdx
import Idealize.ShloMosaic.Lib.IdealHost
import Idealize.ShloMosaic.Lib.Pipeline.Value
import Idealize.ShloMosaic.Lib.KernelVsHost

noncomputable section

namespace Cert.Stages

open Idealize.ShloMosaic Idealize.ShloMosaic.ValueIdx

theorem reduces_of_reducesTo {s t : Shape} {a : Fin s.rank} (h : s.ReducesTo [a] t) (ht : 0 < t.rank) : s.Reduces [a] t :=
  ⟨h.1, ht, h.2⟩

theorem lift_row {n m : Nat} (h : (Smat n m).Reduces [1] (Svec n)) (i : Fin n) (j : Fin m) :
    h.lift (ix1 i) j = ix2 i j := by
  funext c
  apply Fin.ext
  fin_cases c <;> rfl

section Pointwise

variable {s : Shape} (hb : S0.BroadcastsInDim s (![] : Fin 0 → Fin s.rank))

theorem reluH_apply (y : Ten Ideal s) (j : s.Idx) : reluH hb y j = max (y j) 0 := by
  show max (y j) (Ideal.ofBits .f32 0x00000000#32) = _
  rw [Ideal.ofBits_zero_f32]

-- A selection on a decided proposition is the conditional on it.
theorem select_ofBool {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

theorem leaky_apply (e : Ten Ideal s) (j : s.Idx) :
    leaky hb e j = if 0 ≤ e j then e j else Ideal.ofBits .f32 0x3E4CCCCD#32 * e j := by
  show Scalar.select (Ideal.cmp .oge (e j) (Ideal.ofBits .f32 0x00000000#32)) (e j)
      (Ideal.ofBits .f32 0x3E4CCCCD#32 * e j) = _
  rw [Ideal.ofBits_zero_f32]
  exact select_ofBool _ _ _

theorem maskedScores_apply (adj l : Ten Ideal s) (j : s.Idx) :
    maskedScores hb adj l j = if 0 < adj j then l j else Ideal.ofBits .f32 0xD9FFCB9E#32 := by
  show Scalar.select (Ideal.cmp .ogt (adj j) (Ideal.ofBits .f32 0x00000000#32)) (l j)
      (Ideal.ofBits .f32 0xD9FFCB9E#32) = _
  rw [Ideal.ofBits_zero_f32]
  exact select_ofBool _ _ _

end Pointwise

theorem bcastCol_apply {α : Type} {n m : Nat}
    (h : (Smat n 1).BroadcastsInDim (Smat n m) (![0, 1] : Fin 2 → Fin (Smat n m).rank))
    (x : (Smat n 1).Idx → α) (i : Fin n) (j : Fin m) :
    broadcastInDim (Smat n m) ![0, 1] h x (ix2 i j) = x (ix2 i 0) := by
  refine broadcastInDim_apply _ h x _ _ fun a => ?_
  fin_cases a
  · show i.val = if n = 1 then 0 else i.val
    split <;> omega
  · rfl

theorem outerSum_apply {n m : Nat}
    (hl : (Smat n 1).BroadcastsInDim (Smat n m) (![0, 1] : Fin 2 → Fin (Smat n m).rank))
    (hr : (Smat 1 m).BroadcastsInDim (Smat n m) (![0, 1] : Fin 2 → Fin (Smat n m).rank))
    (f1 : Ten Ideal (Smat n 1)) (f2 : Ten Ideal (Smat 1 m)) (i : Fin n) (j : Fin m) :
    outerSum hl hr f1 f2 (ix2 i j) = f1 (ix2 i 0) + f2 (ix2 0 j) := by
  show broadcastInDim (Smat n m) ![0, 1] hl f1 (ix2 i j) + broadcastInDim (Smat n m) ![0, 1] hr f2 (ix2 i j) = _
  rw [bcastCol_apply, broadcastInDim_oneRow_apply]

theorem transpose2_apply {α : Type} {n m : Nat} (h : (Smat n m).Transposes [1, 0] (Smat m n))
    (x : (Smat n m).Idx → α) (a : Fin m) (b : Fin n) :
    transpose (Smat m n) [1, 0] x h (ix2 a b) = x (ix2 b a) := by
  refine transpose_apply _ x h _ _ fun c => ?_
  fin_cases c <;> rfl

section Softmax

variable {n m : Nat}
  (hR : (Smat n m).ReducesTo [1] (Svec n)) (h0 : 0 < S0.numel)
  (hv : S0.BroadcastsInDim (Svec n) (![] : Fin 0 → Fin (Svec n).rank))
  (h1 : (Svec n).BroadcastsInDim (Smat n 1) (![0] : Fin 1 → Fin (Smat n 1).rank))
  (h2 : (Smat n 1).BroadcastsInDim (Smat n m) (![0, 1] : Fin 2 → Fin (Smat n m).rank))

theorem alongCols_apply {α : Type} (v : (Svec n).Idx → α) (i : Fin n) (j : Fin m) :
    broadcastInDim (Smat n m) ![0, 1] h2 (broadcastInDim (Smat n 1) ![0] h1 v) (ix2 i j) = v (ix1 i) := by
  rw [bcastCol_apply]
  refine broadcastInDim_apply _ h1 v _ _ fun a => ?_
  fin_cases a
  show i.val = if n = 1 then 0 else i.val
  split <;> omega

theorem rowMax_apply (s : Ten Ideal (Smat n m)) (i : Fin n) :
    rowMax hR h0 hv s (ix1 i)
      = max (Ideal.ofBits .f32 0xFF800000#32)
          ((Finset.univ : Finset (Fin m)).fold max (Ideal.ofBits .f32 0xFF800000#32) fun j => s (ix2 i j)) := by
  have hRed := reduces_of_reducesTo hR Nat.one_pos
  show max (Ideal.ofBits .f32 0xFF800000#32)
      (Host.reduce FloatOps.maximumf s (constant (F := Ideal) S0 .f32 0xFF800000#32) hR h0 (ix1 i)) = _
  refine congrArg (max (Ideal.ofBits .f32 0xFF800000#32)) ?_
  refine (Host.reduce_eq_fold_single (α := Ideal .f32) (FloatOps.maximumf : Ideal .f32 → Ideal .f32 → Ideal .f32) s
    (constant (F := Ideal) S0 .f32 0xFF800000#32) hR hRed h0 (ix1 i)).trans ?_
  exact congrArg (fun f => (Finset.univ : Finset (Fin m)).fold max _ f) (funext fun j => congrArg s (lift_row hRed i j))

theorem rowSum_apply (x : Ten Ideal (Smat n m)) (i : Fin n) :
    rowSum hR h0 x (ix1 i) = ∑ j : Fin m, x (ix2 i j) := by
  have hRed := reduces_of_reducesTo hR Nat.one_pos
  unfold rowSum
  rw [hostReduceAdd_apply, Ideal.hostReduceAdd_single hR hRed]
  show Ideal.ofBits .f32 0x00000000#32 + _ = _
  rw [Ideal.ofBits_zero_f32, zero_add]
  exact Finset.sum_congr rfl fun j _ => congrArg x (lift_row hRed i j)

theorem expShift_apply (s : Ten Ideal (Smat n m)) (i : Fin n) (j : Fin m) :
    expShift hR h0 hv h1 h2 s (ix2 i j) = Ideal.exp (s (ix2 i j) - rowMax hR h0 hv s (ix1 i)) := by
  show Ideal.exp (s (ix2 i j) - alongCols h1 h2 (rowMax hR h0 hv s) (ix2 i j)) = _
  unfold alongCols
  rw [alongCols_apply]

theorem softmaxRow_apply (s : Ten Ideal (Smat n m)) (i : Fin n) (j : Fin m) :
    softmaxRow hR h0 hv h1 h2 s (ix2 i j)
      = Ideal.div (expShift hR h0 hv h1 h2 s (ix2 i j)) (rowSum hR h0 (expShift hR h0 hv h1 h2 s) (ix1 i)) := by
  show Ideal.div (expShift hR h0 hv h1 h2 s (ix2 i j))
      (alongCols h1 h2 (rowSum hR h0 (expShift hR h0 hv h1 h2 s)) (ix2 i j)) = _
  unfold alongCols
  rw [alongCols_apply]

end Softmax

def mmContr {M K N : Nat} (wf : DotDims.WF (Smat M K) (Smat K N) (Smat M N) [1] [0] [0] [1] [] []) :
    (mmDims wf).contr.Idx ≃ Fin K := contrEquiv1 (mmDims wf) K rfl rfl

theorem mm_lhsIdx {M K N : Nat} (wf : DotDims.WF (Smat M K) (Smat K N) (Smat M N) [1] [0] [0] [1] [] [])
    (i : Fin M) (c : Fin N) (k : Fin K) :
    (mmDims wf).lhsIdx (ix2 i c) ((mmContr wf).symm k) = ix2 i k := by
  funext a
  apply Fin.ext
  fin_cases a
  · simp [DotDims.lhsIdx, mmDims]; rfl
  · simp [DotDims.lhsIdx, mmDims, mmContr, contrEquiv1]; rfl

theorem mm_rhsIdx {M K N : Nat} (wf : DotDims.WF (Smat M K) (Smat K N) (Smat M N) [1] [0] [0] [1] [] [])
    (i : Fin M) (c : Fin N) (k : Fin K) :
    (mmDims wf).rhsIdx (ix2 i c) ((mmContr wf).symm k) = ix2 k c := by
  funext a
  apply Fin.ext
  fin_cases a
  · simp [DotDims.rhsIdx, mmDims, mmContr, contrEquiv1]; rfl
  · simp [DotDims.rhsIdx, mmDims]; rfl

theorem mm_apply {M K N : Nat} (wf : DotDims.WF (Smat M K) (Smat K N) (Smat M N) [1] [0] [0] [1] [] [])
    (l : Ten Ideal (Smat M K)) (r : Ten Ideal (Smat K N)) (i : Fin M) (c : Fin N) :
    mm wf l r (ix2 i c) = ∑ k : Fin K, l (ix2 i k) * r (ix2 k c) := by
  unfold mm
  simp only [Host.dotGeneral]
  rw [Ideal.dotGeneral_apply, ← Equiv.sum_comp (mmContr wf).symm]
  exact Finset.sum_congr rfl fun k _ => by rw [mm_lhsIdx, mm_rhsIdx]

end Cert.Stages

end
-- ==== Proof.BridgePure.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import proofs.«400709_j481036337855_3_alg».proof.Proof.Stages
import proofs.«400709_j481036337855_3_alg».proof.Proof.StagesRead
import proofs.«400709_j481036337855_3_alg».proof.Proof.Val0Spec
import proofs.«400709_j481036337855_3_alg».proof.Proof.Val12Spec
import proofs.«400709_j481036337855_3_alg».proof.Proof.Val3Spec
import proofs.«400709_j481036337855_3_alg».proof.Proof.LibReal

noncomputable section

namespace Cert.Bridge

open Idealize.ShloMosaic Idealize.ShloMosaic.ValueIdx
open Cert.Stages Cert.LibReal Cert.KernelIdeal.Hand
open scoped BigOperators

theorem exists_ix2 {n0 n1 : Nat} (j : (Smat n0 n1).Idx) : ∃ (r : Fin n0) (c : Fin n1), j = ix2 r c :=
  ⟨j 0, j 1, eq_ix2 j⟩

theorem ipVal_eq_mm (wf : DotDims.WF (Smat 8192 256) (Smat 256 8192) (Smat 8192 8192) [1] [0] [0] [1] [] [])
    (ht : (Smat 8192 256).Transposes [1, 0] (Smat 256 8192)) (hbits : FTy.bf16.bits < FTy.f32.bits)
    (s : Ten Ideal (Smat 8192 256)) :
    ipVal (truncf (F := Ideal) .bf16 (s : FVec Ideal (Smat 8192 256) .f32) hbits)
      = mm wf s (transpose (Smat 256 8192) [1, 0] s ht) := by
  funext i
  obtain ⟨r, c, rfl⟩ := exists_ix2 i
  rw [mm_apply, ipVal_apply]
  refine Finset.sum_congr rfl fun k _ => ?_
  rw [transpose2_apply]
  rfl

theorem reshape_col_eq_transpose {α : Type} {n : Nat} (hsc : (Smat n 1).ShapeCasts (Smat 1 n))
    (ht : (Smat n 1).Transposes [1, 0] (Smat 1 n)) (x : (Smat n 1).Idx → α) :
    shapeCast (Smat 1 n) x hsc = transpose (Smat 1 n) [1, 0] x ht := by
  funext j
  obtain ⟨z, k, rfl⟩ := exists_ix2 j
  rw [transpose2_apply]
  refine shapeCast_apply x hsc _ _ ?_
  rw [Shape.rowMajor_val_two, Shape.rowMajor_val_two]
  show k.val * 1 + z.val = z.val * n + k.val
  have hz : z.val = 0 := by omega
  rw [hz]; omega

-- A column slice of a rectified product with the adjacency reads the features' columns from the slice's offset on.
theorem slice_relu_mm {N C off : Nat}
    (wf : DotDims.WF (Smat 8192 8192) (Smat 8192 C) (Smat 8192 C) [1] [0] [0] [1] [] [])
    (hb : S0.BroadcastsInDim (Smat 8192 C) (![] : Fin 0 → Fin (Smat 8192 C).rank))
    (hs : (Smat 8192 N).Slices ![0, off] (Smat 8192 C))
    (a : Ten Ideal (Smat 8192 8192)) (x : (Smat 8192 N).Idx → EReal) (y : Ten Ideal (Smat 8192 C))
    (col : Fin C → Fin N) (hcol : ∀ c, (col c).val = off + c.val)
    (hx : ∀ k c, x (ix2 k (col c)) = y (ix2 k c)) :
    extractStridedSlice (Smat 8192 C) ![0, off]
        (fun i : (Smat 8192 N).Idx => max (∑ k : Fin 8192, a (ix2 (i 0 : Fin 8192) k) * x (ix2 k (i 1 : Fin N))) 0) hs
      = reluH hb (mm wf a y) := by
  funext j
  obtain ⟨r, c, rfl⟩ := exists_ix2 j
  rw [reluH_apply, mm_apply]
  refine (extractStridedSlice_apply ![0, off] _ hs _ (ix2 r (col c))
    (fun b => match b with
      | ⟨0, _⟩ => by show r.val = 0 + r.val; omega
      | ⟨1, _⟩ => hcol c)).trans ?_
  show max (∑ k : Fin 8192, a (ix2 r k) * x (ix2 k (col c))) 0 = _
  simp only [hx]

section Attention

variable (hb : S0.BroadcastsInDim (Smat 8192 8192) (![] : Fin 0 → Fin (Smat 8192 8192).rank))
  (hl : (Smat 8192 1).BroadcastsInDim (Smat 8192 8192) (![0, 1] : Fin 2 → Fin (Smat 8192 8192).rank))
  (hr : (Smat 1 8192).BroadcastsInDim (Smat 8192 8192) (![0, 1] : Fin 2 → Fin (Smat 8192 8192).rank))
  (hR : (Smat 8192 8192).ReducesTo [1] (Svec 8192)) (h0 : 0 < S0.numel)
  (hv : S0.BroadcastsInDim (Svec 8192) (![] : Fin 0 → Fin (Svec 8192).rank))
  (h1 : (Svec 8192).BroadcastsInDim (Smat 8192 1) (![0] : Fin 1 → Fin (Smat 8192 1).rank))
  (h2 : (Smat 8192 1).BroadcastsInDim (Smat 8192 8192) (![0, 1] : Fin 2 → Fin (Smat 8192 8192).rank))
  (wf : DotDims.WF (Smat 8192 8192) (Smat 8192 128) (Smat 8192 128) [1] [0] [0] [1] [] [])
  (f1 : Ten Ideal (Smat 8192 1)) (f2t : Ten Ideal (Smat 1 8192)) (Wh : Ten Ideal (Smat 8192 128))
  (adj : Ten Ideal (Smat 8192 8192))

theorem scores_apply (r k : Fin 8192) :
    maskedScores hb adj (Cert.Stages.leaky hb (outerSum hl hr f1 f2t)) (ix2 r k) = scoreAt f1 f2t adj r k := by
  rw [maskedScores_apply, leaky_apply, outerSum_apply]
  rfl

theorem isReal_ofBits_slope : IsReal (Ideal.ofBits .f32 0x3E4CCCCD#32) :=
  ⟨13421773 * (2 : ℝ) ^ (-26 : ℤ), by simp [Ideal.ofBits, Ideal.ieee, -EReal.coe_mul]⟩

theorem isReal_ofBits_fill : IsReal (Ideal.ofBits .f32 0xD9FFCB9E#32) :=
  ⟨-1 * 16763806 * (2 : ℝ) ^ (29 : ℤ), by simp [Ideal.ofBits, Ideal.ieee, -EReal.coe_mul]⟩

theorem isReal_scoreAt (hf1 : ∀ i, IsReal (f1 i)) (hf2 : ∀ i, IsReal (f2t i)) (r k : Fin 8192) :
    IsReal (scoreAt f1 f2t adj r k) := by
  unfold scoreAt score
  split
  · unfold Cert.KernelIdeal.Hand.leaky
    split
    · exact (hf1 _).add (hf2 _)
    · exact isReal_ofBits_slope.mul ((hf1 _).add (hf2 _))
  · exact isReal_ofBits_fill

theorem isReal_rowMax_scores (hf1 : ∀ i, IsReal (f1 i)) (hf2 : ∀ i, IsReal (f2t i)) (r : Fin 8192) :
    IsReal (rowMax hR h0 hv (maskedScores hb adj (Cert.Stages.leaky hb (outerSum hl hr f1 f2t))) (ix1 r)) := by
  rw [rowMax_apply, ofBits_neg_inf, max_eq_right bot_le]
  refine IsReal.fold_max Finset.univ Finset.univ_nonempty _ fun k _ => ?_
  rw [scores_apply]
  exact isReal_scoreAt f1 f2t adj hf1 hf2 r k

theorem attn_eq_mm :
    (fun i : (Smat 8192 128).Idx =>
        attnAt f1 f2t Wh adj
          (fun r => rowMax hR h0 hv (maskedScores hb adj (Cert.Stages.leaky hb (outerSum hl hr f1 f2t))) (ix1 r))
          (i 0) (i 1))
      = mm wf (softmaxRow hR h0 hv h1 h2 (maskedScores hb adj (Cert.Stages.leaky hb (outerSum hl hr f1 f2t)))) Wh := by
  funext i
  obtain ⟨r, d, rfl⟩ := exists_ix2 i
  rw [mm_apply]
  simp only [softmaxRow_apply, rowSum_apply, expShift_apply, scores_apply]
  rfl

end Attention

end Cert.Bridge

end
-- ==== Proof.Bridge.lean ====
import proofs.«400709_j481036337855_3_alg».proof.Defs
import proofs.«400709_j481036337855_3_alg».proof.Proof.Gen.Pre_finite_inputs
import proofs.«400709_j481036337855_3_alg».proof.Proof.Run
import proofs.«400709_j481036337855_3_alg».proof.Proof.RefRunB
import proofs.«400709_j481036337855_3_alg».proof.Proof.KHost
import proofs.«400709_j481036337855_3_alg».proof.Proof.Val0
import proofs.«400709_j481036337855_3_alg».proof.Proof.Val0c
import proofs.«400709_j481036337855_3_alg».proof.Proof.Val1
import proofs.«400709_j481036337855_3_alg».proof.Proof.Val2
import proofs.«400709_j481036337855_3_alg».proof.Proof.Val3
import proofs.«400709_j481036337855_3_alg».proof.Proof.BridgeReal
import proofs.«400709_j481036337855_3_alg».proof.Proof.BridgePure

set_option maxRecDepth 16384

noncomputable section

namespace Cert.Bridge

open Idealize.ShloMosaic Idealize.ShloMosaic.TcCoe Idealize.ShloMosaic.ValueIdx
open Idealize.SL.Sem
open Cert.Stages Cert.LibReal
open Cert.KernelIdeal Cert.KernelIdeal.Gen Cert.KernelIdeal.Hand

noncomputable def kernelArgs (m : (ℓ : Loc nD τ sig) → Buf (Elt Ideal) ℓ) (c : Dev nD) : Cert.ReferenceIdeal.RefRun.Args Ideal where
  x := m ((c.tc : Thread nD τ).loc main_arg0)
  adj := m ((c.tc : Thread nD τ).loc main_arg1)
  w := m ((c.tc : Thread nD τ).loc main_arg2)
  a := m ((c.tc : Thread nD τ).loc main_arg3)
  w1 := m ((c.tc : Thread nD τ).loc main_arg4)
  g1 := m ((c.tc : Thread nD τ).loc main_arg5)
  b1 := m ((c.tc : Thread nD τ).loc main_arg6)
  w2 := m ((c.tc : Thread nD τ).loc main_arg7)
  g2 := m ((c.tc : Thread nD τ).loc main_arg8)
  b2 := m ((c.tc : Thread nD τ).loc main_arg9)
  w3 := m ((c.tc : Thread nD τ).loc main_arg10)
  g3 := m ((c.tc : Thread nD τ).loc main_arg11)
  b3 := m ((c.tc : Thread nD τ).loc main_arg12)

section Chain

variable (m : (ℓ : Loc nD τ sig) → Buf (Elt Ideal) ℓ) (c : Dev nD)

local notation "𝔸" => kernelArgs m c

theorem adj_narrow :
    (W2 (F := Ideal) m c (Proc.devRef .tc main_v6_1) : S8192x8192.Idx → EReal) = (𝔸).adj :=
  ((W2_arr m c 5).trans (final0_5 (E1 m) c)).trans (W1_arg1 m c)

theorem z_eq (hpre : Cert.Pre_KernelIdeal m) :
    kZ (F := Ideal) m c = Cert.ReferenceIdeal.RefRun.z (𝔸) := by
  obtain ⟨r1, r2, r3, r4⟩ := attn_inputs_real m c (hpre c)
  have hf1 : f1A (E1 m) c = Cert.ReferenceIdeal.RefRun.f1 (𝔸) := W1_v2 m c
  have hf2 : f2A (E1 m) c = Cert.ReferenceIdeal.RefRun.f2t (𝔸) :=
    (W1_v5 m c).trans (reshape_col_eq_transpose _ _ _)
  have hwh : whA (E1 m) c = Cert.ReferenceIdeal.RefRun.wh (𝔸) := W1_v0 m c
  have hadj : adjA (E1 m) c = (𝔸).adj := W1_arg1 m c
  have hc' := isReal_rowMax_scores Cert.ReferenceIdeal.Gen.bcast_S_S8192x8192
    Cert.ReferenceIdeal.Gen.bcast_S8192x1_S8192x8192_0_1 Cert.ReferenceIdeal.Gen.bcast_S1x8192_S8192x8192_0_1
    Cert.ReferenceIdeal.Gen.reducesTo_S8192x8192_S8192_d1 Cert.ReferenceIdeal.Gen.h_S_
    Cert.ReferenceIdeal.Gen.bcast_S_S8192
    (Cert.ReferenceIdeal.RefRun.f1 (𝔸)) (Cert.ReferenceIdeal.RefRun.f2t (𝔸)) (𝔸).adj (hf1 ▸ r1) (hf2 ▸ r2)
  refine (W2_arr m c 4).trans ((final0_4 (E1 m) c r1 r2 r3 r4 _ hc').trans ?_)
  rw [hf1, hf2, hwh, hadj]
  exact attn_eq_mm _ _ _ _ _ _ _ _ _ _ _ _ _

theorem y11_eq (hpre : Cert.Pre_KernelIdeal m) :
    kY11 (F := Ideal) m c
      = gcnVal1 (𝔸).adj (kXw1 (Cert.ReferenceIdeal.RefRun.z (𝔸)) (𝔸).w1 (𝔸).w3) := by
  refine (W4_arr m c 2).trans ((final1 (E3 m) c).trans ?_)
  show gcnVal1 (W3 m c (Proc.devRef .tc main_v6_1)) (W3 m c (Proc.devRef .tc main_v10)) = _
  rw [W3_v6_1 m c, W3_v10 m c, z_eq m c hpre]
  exact congrArg (fun a => gcnVal1 a _) (adj_narrow m c)

theorem y11_lo (hpre : Cert.Pre_KernelIdeal m) :
    kLo (kY11 (F := Ideal) m c) = Cert.ReferenceIdeal.RefRun.h1 (𝔸) := by
  rw [y11_eq m c hpre]
  exact slice_relu_mm _ _ _ _ _ _
    (fun c => ⟨c.val, by omega⟩) (fun c => (Nat.zero_add _).symm) fun k c =>
    concatenate_pair_apply_left 1 (kZW (Cert.ReferenceIdeal.RefRun.z (𝔸)) (𝔸).w1) (kZW (Cert.ReferenceIdeal.RefRun.z (𝔸)) (𝔸).w3)
      concatenates_S8192x256_S8192x256_S8192x512_d1 _ rfl (ix2 k c)
      (fun b => match b with | ⟨0, _⟩ => rfl | ⟨1, _⟩ => rfl)

theorem y11_hi (hpre : Cert.Pre_KernelIdeal m) :
    kHi (kY11 (F := Ideal) m c) = Cert.ReferenceIdeal.RefRun.h3 (𝔸) := by
  rw [y11_eq m c hpre]
  exact slice_relu_mm _ _ _ _ _ _
    (fun c => ⟨256 + c.val, by omega⟩) (fun _ => rfl) fun k c =>
    concatenate_pair_apply_right 1 (kZW (Cert.ReferenceIdeal.RefRun.z (𝔸)) (𝔸).w1) (kZW (Cert.ReferenceIdeal.RefRun.z (𝔸)) (𝔸).w3)
      concatenates_S8192x256_S8192x256_S8192x512_d1 _ rfl rfl (ix2 k c)
      (fun b => match b with
        | ⟨0, _⟩ => fun _ => rfl
        | ⟨1, _⟩ => fun hne => absurd rfl hne)
      (by show c.val + 256 = 256 + c.val; omega)

theorem y67_cut (hpre : Cert.Pre_KernelIdeal m) :
    kCut (kY67 (F := Ideal) m c) = Cert.ReferenceIdeal.RefRun.h2 (𝔸) := by
  have hY : kY67 (F := Ideal) m c
      = gcnVal2 (𝔸).adj (kXw2 (𝔸).g1 (𝔸).b1 (𝔸).w2 (kY11 (F := Ideal) m c)) := by
    refine (W8_arr m c 2).trans ((final2 (E7 m) c).trans ?_)
    show gcnVal2 (W7 m c (Proc.devRef .tc main_v6_1)) (W7 m c (Proc.devRef .tc main_v66)) = _
    rw [W7_v6_1 m c, W7_v66 m c]
    exact congrArg (fun a => gcnVal2 a _) (adj_narrow m c)
  rw [hY]
  unfold kXw2 kBn1
  rw [y11_lo m c hpre]
  exact slice_relu_mm _ _ _ _ _ _
    (fun c => ⟨c.val, by omega⟩) (fun c => (Nat.zero_add _).symm) fun k c =>
    pad_apply_of_inside ![0, 0] ![0, 103] ![0, 0] (kZW2 (Cert.ReferenceIdeal.RefRun.bn1 (𝔸)) (𝔸).w2) kPadVal
      pads_S8192x1433_S8192x1536_000_01030 h_S_ _ (ix2 k c)
      (fun b => match b with
        | ⟨0, _⟩ => by show k.val = 0 + k.val * (0 + 1); omega
        | ⟨1, _⟩ => by show c.val = 0 + c.val * (0 + 1); omega)

end Chain

theorem feat_eq (m : (ℓ : Loc nD τ sig) → Buf (Elt Ideal) ℓ) (c : Dev nD) (hpre : Cert.Pre_KernelIdeal m) :
    W10 (F := Ideal) m c (Proc.devRef .tc main_v93) = Cert.ReferenceIdeal.RefRun.resFeat (kernelArgs m c) := by
  refine (W10_v93 m c).trans ?_
  unfold kFeat
  rw [y67_cut m c hpre]
  rfl

theorem struct_eq (m : (ℓ : Loc nD τ sig) → Buf (Elt Ideal) ℓ) (c : Dev nD) (hpre : Cert.Pre_KernelIdeal m) :
    W10 (F := Ideal) m c (Proc.devRef .tc main_v95) = Cert.ReferenceIdeal.RefRun.resStruct (kernelArgs m c) := by
  refine (W10_out m c).trans ((final3 (E9 m) c).trans ?_)
  show ipVal (W9 m c (Proc.devRef .tc main_v94)) = _
  rw [W9_v94 m c]
  unfold kS1b kBn3
  rw [y11_hi m c hpre]
  exact ipVal_eq_mm _ _ _ _

theorem algebraic : Cert.algebraic_KernelIdeal_ReferenceIdeal := by
  intro m ρ m' ρ' hpre hagree
  refine ⟨fun c => W10 (F := Ideal) m c (Proc.devRef .tc main_v93),
    fun c => W10 (F := Ideal) m c (Proc.devRef .tc main_v95), value_run m ρ, ?_⟩
  have hargs : ∀ c, Cert.ReferenceIdeal.RefRun.argsOf m' c = kernelArgs m c := fun c => by
    obtain ⟨e0, e1, e2, e3, e4, e5, e6, e7, e8, e9, e10, e11, e12⟩ := hagree c
    unfold Cert.ReferenceIdeal.RefRun.argsOf kernelArgs
    rw [e0, e1, e2, e3, e4, e5, e6, e7, e8, e9, e10, e11, e12]
  refine (θ_run Cert.ReferenceIdeal.defs _ _).mono (fun _ h c =>
    ⟨(h c).1.trans ?_, (h c).2.1.trans ?_, (h c).2.2⟩) (Cert.ReferenceIdeal.RefRun.run (F := Ideal) m' ρ')
  · rw [hargs c]; exact (feat_eq m c hpre).symm
  · rw [hargs c]; exact (struct_eq m c hpre).symm

end Cert.Bridge

end
-- ==== Proof.lean ====
import proofs.«400709_j481036337855_3_alg».proof.Defs
import proofs.«400709_j481036337855_3_alg».proof.Proof.Gen.Kernel
import proofs.«400709_j481036337855_3_alg».proof.Proof.Gen.KernelIdeal
import proofs.«400709_j481036337855_3_alg».proof.Proof.Gen.ReferenceIdeal
import proofs.«400709_j481036337855_3_alg».proof.Proof.Gen.Pre_finite_inputs
import proofs.«400709_j481036337855_3_alg».proof.Proof.KRun
import proofs.«400709_j481036337855_3_alg».proof.Proof.Run
import proofs.«400709_j481036337855_3_alg».proof.Proof.RefRunB
import proofs.«400709_j481036337855_3_alg».proof.Proof.Bridge

noncomputable section

namespace Cert.Proof

open Idealize.ShloMosaic Idealize.SL.Sem

theorem frame_k : Cert.frame_Kernel := fun m ρ _ => Cert.Kernel.Hand.frame_run (F := Bits) m ρ

theorem frame_ki : Cert.frame_KernelIdeal := fun m ρ _ => Cert.KernelIdeal.Hand.frame_run (F := Ideal) m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
